-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v59)) (v2 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v59) = v1 c
          ∧ r.2.mem ((c.tc : Thread Cert.KernelIdeal.nD Cert.KernelIdeal.τ).loc Cert.KernelIdeal.main_v60) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S512x512 : Shape := ⟨2, ![512, 512]⟩
abbrev S512 : Shape := ⟨1, ![512]⟩
abbrev S160000 : Shape := ⟨1, ![160000]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S160000 : S_.BroadcastsInDim S160000 (![] : Fin 0 → Fin S160000.rank)
  reducesTo_S160000_S_d0 : S160000.ReducesTo [0] S_

variable [Facts]

def fn_part2 {F : FTy → Type} [FloatOps F] (main_arg7 : IVec S160000 32) (main_arg8 : IVec S160000 32) (main_v33 : IVec S_ 1) : IVec S_ 1 :=
  let main_c_12 : IVec S_ 32 := constantI S_ 32 0#32
  let main_v34 : IVec S160000 32 := broadcastInDim S160000 ![] bcast_S_S160000 main_c_12
  let main_v35 : IVec S160000 1 := cmpi .sge main_arg7 main_v34
  let main_c_13 : IVec S_ 32 := constantI S_ 32 10000#32
  let main_v36 : IVec S160000 32 := broadcastInDim S160000 ![] bcast_S_S160000 main_c_13
  let main_v37 : IVec S160000 1 := cmpi .slt main_arg7 main_v36
  let main_v38 : IVec S160000 1 := andi main_v35 main_v37
  let main_c_14 : IVec S_ 1 := constantI S_ 1 1#1
  let main_v39 : IVec S_ 1 := (fun x v => Host.reduce IntOp.andi x v reducesTo_S160000_S_d0 h_S_) main_v38 main_c_14
  let main_v40 : IVec S_ 1 := andi main_v33 main_v39
  let main_c_15 : IVec S_ 32 := constantI S_ 32 0#32
  let main_v41 : IVec S160000 32 := broadcastInDim S160000 ![] bcast_S_S160000 main_c_15
  let main_v42 : IVec S160000 1 := cmpi .sge main_arg8 main_v41
  let main_c_16 : IVec S_ 32 := constantI S_ 32 10000#32
  let main_v43 : IVec S160000 32 := broadcastInDim S160000 ![] bcast_S_S160000 main_c_16
  let main_v44 : IVec S160000 1 := cmpi .slt main_arg8 main_v43
  let main_v45 : IVec S160000 1 := andi main_v42 main_v44
  let main_c_17 : IVec S_ 1 := constantI S_ 1 1#1
  let main_v46 : IVec S_ 1 := (fun x v => Host.reduce IntOp.andi x v reducesTo_S160000_S_d0 h_S_) main_v45 main_c_17
  let main_v47 : IVec S_ 1 := andi main_v40 main_v46
  main_v47

def fn_part1 {F : FTy → Type} [FloatOps F] (main_arg4 : FVec F S512 .f32) (main_arg5 : FVec F S512x512 .f32) (main_arg6 : FVec F S512 .f32) (main_arg7 : IVec S160000 32) (main_arg8 : IVec S160000 32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S10000x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) (main_arg7 : IVec S160000 32) (main_arg8 : IVec S160000 32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_v13 main_v16
-- ==== Kernel.lean ====
abbrev S10000x512 : Shape := ⟨2, ![10000, 512]⟩
abbrev S512x512 : Shape := ⟨2, ![512, 512]⟩
abbrev S512 : Shape := ⟨1, ![512]⟩
abbrev S160000 : Shape := ⟨1, ![160000]⟩
abbrev S_ : Shape := ⟨0, ![]⟩
abbrev S10000 : Shape := ⟨1, ![10000]⟩
abbrev S160000x1 : Shape := ⟨2, ![160000, 1]⟩
abbrev S104857600 : Shape := ⟨1, ![104857600]⟩
abbrev S10240x10240 : Shape := ⟨2, ![10240, 10240]⟩
abbrev S10240x512 : Shape := ⟨2, ![10240, 512]⟩
abbrev S1 : Shape := ⟨1, ![1]⟩
abbrev S1x512 : Shape := ⟨2, ![1, 512]⟩
abbrev S1024x2048 : Shape := ⟨2, ![1024, 2048]⟩
abbrev S1024x512 : Shape := ⟨2, ![1024, 512]⟩
abbrev S2048x512 : Shape := ⟨2, ![2048, 512]⟩

abbrev nBuf : Space → Nat
  | .hbm => 95
  | .vmem => 30
  | .smem => 0
  | _ => 0

abbrev bufTy : (tb : Table) → Fin (tcTables nBuf tb) → BufTy
  | .hbm, ⟨0, _⟩ => ⟨S10000x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S160000, .i32⟩
  | .hbm, ⟨8, _⟩ => ⟨S160000, .i32⟩
  | .hbm, ⟨9, _⟩ => ⟨S_, .f32⟩
  | .hbm, ⟨10, _⟩ => ⟨S160000, .f32⟩
  | .hbm, ⟨11, _⟩ => ⟨S_, .f32⟩
  | .hbm, ⟨12, _⟩ => ⟨S10000, .f32⟩
  | .hbm, ⟨13, _⟩ => ⟨S160000x1, .i32⟩
  | .hbm, ⟨14, _⟩ => ⟨S10000, .f32⟩
  | .hbm, ⟨15, _⟩ => ⟨S_, .f32⟩
  | .hbm, ⟨16, _⟩ => ⟨S10000, .f32⟩
  | .hbm, ⟨17, _⟩ => ⟨S160000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S_, .f32⟩
  | .hbm, ⟨26, _⟩ => ⟨S_, .f32⟩
  | .hbm, ⟨27, _⟩ => ⟨S10000, .f32⟩
  | .hbm, ⟨28, _⟩ => ⟨S10000, .f32⟩
  | .hbm, ⟨29, _⟩ => ⟨S_, .f32⟩
  | .hbm, ⟨30, _⟩ => ⟨S10000, .f32⟩
  | .hbm, ⟨31, _⟩ => ⟨S10000, .i1⟩
  | .hbm, ⟨32, _⟩ => ⟨S_, .f32⟩
  | .hbm, ⟨33, _⟩ => ⟨S10000, .f32⟩
  | .hbm, ⟨34, _⟩ => ⟨S10000, .f32⟩
  | .hbm, ⟨35, _⟩ => ⟨S_, .f32⟩
  | .hbm, ⟨36, _⟩ => ⟨S_, .f32⟩
  | .hbm, ⟨37, _⟩ => ⟨S10000, .f32⟩
  | .hbm, ⟨38, _⟩ => ⟨S10000, .f32⟩
  | .hbm, ⟨39, _⟩ => ⟨S_, .i32⟩
  | .hbm, ⟨40, _⟩ => ⟨S160000, .i32⟩
  | .hbm, ⟨41, _⟩ => ⟨S160000, .i1⟩
  | .hbm, ⟨42, _⟩ => ⟨S_, .i32⟩
  | .hbm, ⟨43, _⟩ => ⟨S160000, .i32⟩
  | .hbm, ⟨44, _⟩ => ⟨S160000, .i32⟩
  | .hbm, ⟨45, _⟩ => ⟨S160000, .i32⟩
  | .hbm, ⟨46, _⟩ => ⟨S160000x1, .i32⟩
  | .hbm, ⟨47, _⟩ => ⟨S160000, .f32⟩
  | .hbm, ⟨48, _⟩ => ⟨S_, .i32⟩
  | .hbm, ⟨49, _⟩ => ⟨S160000, .i32⟩
  | .hbm, ⟨50, _⟩ => ⟨S160000, .i1⟩
  | .hbm, ⟨51, _⟩ => ⟨S_, .i32⟩
  | .hbm, ⟨52, _⟩ => ⟨S160000, .i32⟩
  | .hbm, ⟨53, _⟩ => ⟨S160000, .i32⟩
  | .hbm, ⟨54, _⟩ => ⟨S160000, .i32⟩
  | .hbm, ⟨55, _⟩ => ⟨S160000x1, .i32⟩
  | .hbm, ⟨56, _⟩ => ⟨S160000, .f32⟩
  | .hbm, ⟨57, _⟩ => ⟨S160000, .f32⟩
  | .hbm, ⟨58, _⟩ => ⟨S_, .i32⟩
  | .hbm, ⟨59, _⟩ => ⟨S160000, .i32⟩
  | .hbm, ⟨60, _⟩ => ⟨S160000, .i32⟩
  | .hbm, ⟨61, _⟩ => ⟨S160000, .i32⟩
  | .hbm, ⟨62, _⟩ => ⟨S_, .f32⟩
  | .hbm, ⟨63, _⟩ => ⟨S104857600, .f32⟩
  | .hbm, ⟨64, _⟩ => ⟨S_, .i32⟩
  | .hbm, ⟨65, _⟩ => ⟨S160000, .i32⟩
  | .hbm, ⟨66, _⟩ => ⟨S160000, .i1⟩
  | .hbm, ⟨67, _⟩ => ⟨S_, .i32⟩
  | .hbm, ⟨68, _⟩ => ⟨S160000, .i32⟩
  | .hbm, ⟨69, _⟩ => ⟨S160000, .i32⟩
  | .hbm, ⟨70, _⟩ => ⟨S160000, .i32⟩
  | .hbm, ⟨71, _⟩ => ⟨S160000x1, .i32⟩
  | .hbm, ⟨72, _⟩ => ⟨S104857600, .f32⟩
  | .hbm, ⟨73, _⟩ => ⟨S10240x10240, .f32⟩
  | .hbm, ⟨74, _⟩ => ⟨S10240x10240, .bf16⟩
  | .hbm, ⟨75, _⟩ => ⟨S_, .bf16⟩
  | .hbm, ⟨76, _⟩ => ⟨S10240x512, .bf16⟩
  | .hbm, ⟨77, _⟩ => ⟨S10000x512, .bf16⟩
  | .hbm, ⟨78, _⟩ => ⟨S_, .i32⟩
  | .hbm, ⟨79, _⟩ => ⟨S1, .i32⟩
  | .hbm, ⟨80, _⟩ => ⟨S10240x512, .bf16⟩
  | .hbm, ⟨81, _⟩ => ⟨S512x512, .bf16⟩
  | .hbm, ⟨82, _⟩ => ⟨S512x512, .bf16⟩
  | .hbm, ⟨83, _⟩ => ⟨S512x512, .bf16⟩
  | .hbm, ⟨84, _⟩ => ⟨S1x512, .f32⟩
  | .hbm, ⟨85, _⟩ => ⟨S1x512, .f32⟩
  | .hbm, ⟨86, _⟩ => ⟨S1x512, .f32⟩
  | .hbm, ⟨87, _⟩ => ⟨S10240x512, .bf16⟩
  | .hbm, ⟨88, _⟩ => ⟨S10240x512, .f32⟩
  | .hbm, ⟨89, _⟩ => ⟨S10240x512, .bf16⟩
  | .hbm, ⟨90, _⟩ => ⟨S10240x512, .f32⟩
  | .hbm, ⟨91, _⟩ => ⟨S10240x512, .f32⟩
  | .hbm, ⟨92, _⟩ => ⟨S10000x512, .f32⟩
  | .hbm, ⟨93, _⟩ => ⟨S10000x512, .f32⟩
  | .hbm, ⟨94, _⟩ => ⟨S10000x512, .f32⟩
  | .local _ .vmem, ⟨0, _⟩ => ⟨S1024x2048, .bf16⟩
  | .local _ .vmem, ⟨1, _⟩ => ⟨S1024x2048, .bf16⟩
  | .local _ .vmem, ⟨2, _⟩ => ⟨S10240x512, .bf16⟩
  | .local _ .vmem, ⟨3, _⟩ => ⟨S512x512, .bf16⟩
  | .local _ .vmem, ⟨4, _⟩ => ⟨S1x512, .f32⟩
  | .local _ .vmem, ⟨5, _⟩ => ⟨S1024x512, .bf16⟩
  | .local _ .vmem, ⟨6, _⟩ => ⟨S1024x512, .bf16⟩
  | .local _ .vmem, ⟨7, _⟩ => ⟨S1024x512, .f32⟩
  | .local _ .vmem, ⟨8, _⟩ => ⟨S1024x2048, .bf16⟩
  | .local _ .vmem, ⟨9, _⟩ => ⟨S1024x2048, .bf16⟩
  | .local _ .vmem, ⟨10, _⟩ => ⟨S10240x512, .bf16⟩
  | .local _ .vmem, ⟨11, _⟩ => ⟨S512x512, .bf16⟩
  | .local _ .vmem, ⟨12, _⟩ => ⟨S1x512, .f32⟩
  | .local _ .vmem, ⟨13, _⟩ => ⟨S1024x512, .f32⟩
  | .local _ .vmem, ⟨14, _⟩ => ⟨S1024x512, .f32⟩
  | .local _ .vmem, ⟨15, _⟩ => ⟨S1024x512, .bf16⟩
  | .local _ .vmem, ⟨16, _⟩ => ⟨S1024x512, .bf16⟩
  | .local _ .vmem, ⟨17, _⟩ => ⟨S1024x512, .f32⟩
  | .local _ .vmem, ⟨18, _⟩ => ⟨S1024x2048, .bf16⟩
  | .local _ .vmem, ⟨19, _⟩ => ⟨S1024x2048, .bf16⟩
  | .local _ .vmem, ⟨20, _⟩ => ⟨S10240x512, .bf16⟩
  | .local _ .vmem, ⟨21, _⟩ => ⟨S512x512, .bf16⟩
  | .local _ .vmem, ⟨22, _⟩ => ⟨S1x512, .f32⟩
  | .local _ .vmem, ⟨23, _⟩ => ⟨S512x512, .bf16⟩
  | .local _ .vmem, ⟨24, _⟩ => ⟨S1x512, .f32⟩
  | .local _ .vmem, ⟨25, _⟩ => ⟨S1024x512, .f32⟩
  | .local _ .vmem, ⟨26, _⟩ => ⟨S1024x512, .f32⟩
  | .local _ .vmem, ⟨27, _⟩ => ⟨S1024x512, .f32⟩
  | .local _ .vmem, ⟨28, _⟩ => ⟨S1024x512, .f32⟩
  | .local _ .vmem, ⟨29, _⟩ => ⟨S1024x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_v13 : Ref sig .tc := ⟨.hbm, 31, rfl⟩
abbrev main_cst_6 : Ref sig .tc := ⟨.hbm, 32, rfl⟩
abbrev main_v14 : Ref sig .tc := ⟨.hbm, 33, rfl⟩
abbrev main_v15 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_8 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_9 : Ref sig .tc := ⟨.hbm, 48, rfl⟩
abbrev main_v24 : Ref sig .tc := ⟨.hbm, 49, rfl⟩
abbrev main_v25 : Ref sig .tc := ⟨.hbm, 50, rfl⟩
abbrev main_c_10 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_11 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_12 : Ref sig .tc := ⟨.hbm, 62, rfl⟩
abbrev main_v35 : Ref sig .tc := ⟨.hbm, 63, rfl⟩
abbrev main_c_13 : Ref sig .tc := ⟨.hbm, 64, rfl⟩
abbrev main_v36 : Ref sig .tc := ⟨.hbm, 65, rfl⟩
abbrev main_v37 : Ref sig .tc := ⟨.hbm, 66, rfl⟩
abbrev main_c_14 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_15 : Ref sig .tc := ⟨.hbm, 75, rfl⟩
abbrev main_v45 : Ref sig .tc := ⟨.hbm, 76, rfl⟩
abbrev main_v46 : Ref sig .tc := ⟨.hbm, 77, rfl⟩
abbrev main_c_16 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56_0 : Ref sig .tc := ⟨.hbm, 88, rfl⟩
abbrev main_v56_1 : Ref sig .tc := ⟨.hbm, 89, rfl⟩
abbrev main_v57_0 : Ref sig .tc := ⟨.hbm, 90, rfl⟩
abbrev main_v57_1 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc2_stg7_0 : Ref sig .tc := ⟨.vmem, 27, rfl⟩
abbrev cc2_stg7_1 : Ref sig .tc := ⟨.vmem, 28, rfl⟩
abbrev cc2_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24
abbrev cc2_sem7_0 : DmaSem sig := 25
abbrev cc2_sem7_1 : DmaSem sig := 26

abbrev nD : Nat := 1
abbrev τ : Topo := Topo.v7x

variable {F : FTy → Type} [FloatOps F]

abbrev grid0 : Pipeline.Grid := ⟨2, ![10, 5], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c4_i32 : BitVec 32 := 4#32
  let v16 : BitVec 1 := Scalar.cmpi .eq arg1 c4_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10240x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![10, 5], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c4_i32 : BitVec 32 := 4#32
  let v16 : BitVec 1 := Scalar.cmpi .eq arg1 c4_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S10240x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![10, 5], ![false, false]⟩

def k2_mult1 (i : grid2.Coords) : BitVec 32 :=
  let arg1 : BitVec 32 := BitVec.ofNat 32 (i 1).val
  let c2048_i32 : BitVec 32 := 2048#32
  let v3 : BitVec 32 := Scalar.muli arg1 c2048_i32
  v3
def k2_off1 (i : grid2.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k2_cond2 (i : grid2.Coords) : BitVec 1 :=
  let arg1 : BitVec 32 := BitVec.ofNat 32 (i 1).val
  let c4_i32 : BitVec 32 := 4#32
  let v16 : BitVec 1 := Scalar.cmpi .eq arg1 c4_i32
  let v17 : BitVec 32 := Scalar.extui v16
  let c0_i32_7 : BitVec 32 := 0#32
  let v18 : BitVec 1 := Scalar.cmpi .ne v17 c0_i32_7
  v18

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S10240x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S512x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S512x512 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1024x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S1024x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

class Facts₀ : Prop where
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  bcast_S_S104857600 : S_.BroadcastsInDim S104857600 (![] : Fin 0 → Fin S104857600.rank)
  shapeCasts_S104857600_S10240x10240 : S104857600.ShapeCasts S10240x10240
  bitsLt_bf16_f32 : FTy.bits .bf16 < FTy.bits .f32
  bcast_S_S10240x512 : S_.BroadcastsInDim S10240x512 (![] : Fin 0 → Fin S10240x512.rank)
  bcast_S_S1 : S_.BroadcastsInDim S1 (![] : Fin 0 → Fin S1.rank)
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  h_S2048x512 : 0 < S2048x512.numel
  shapeCasts_S2048x512_S2048x512 : S2048x512.ShapeCasts S2048x512
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  iota_S1024x512_d0_w32 : S1024x512.Iotas .tc 32 [0]
  packedbf16_S1024x512_S1024x512_0_0 : (Rect.unit (s := S1024x512) ![0, 0] S1024x512.size inb_S1024x512_S1024x512_0_0).PackedRows (EltTy.packing .bf16)
  slices_S10240x512_S10000x512_0_0 : S10240x512.Slices ![0, 0] S10000x512
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  scatter_S104857600_S160000x1_S160000_n_0_0_1_wf : ScatterDims.WF S104857600 S160000x1 S160000 [] [0] [0] 1
  scatter_S10240x512_S1_S10000x512_01_n_0_0_wf : ScatterDims.WF S10240x512 S1 S10000x512 [0, 1] [] [0] 0
  dot_S1024x2048_S2048x512_S1024x512_1_0_0_1_n_n_wf : DotDims.WF S1024x2048 S2048x512 S1024x512 [1] [0] [0] [1] [] []
  dot_S1024x512_S512x512_S1024x512_1_0_0_1_n_n_wf : DotDims.WF S1024x512 S512x512 S1024x512 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x512.size a ≤ S10240x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S10240x10240.size a
  hwx0_0 : ∀ i : grid0.Coords, EltTy.bits .bf16 = 32 ∨ (Rect.block (s := S10240x10240) S1024x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10240x512.size a ≤ S10240x512.size a
  hwx0_1 : ∀ i : grid0.Coords, EltTy.bits .bf16 = 32 ∨ (Rect.block (s := S10240x512) S10240x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S10240x512.size a
  hwx0_4 : ∀ i : grid0.Coords, EltTy.bits .bf16 = 32 ∨ (Rect.block (s := S10240x512) S1024x512.size (cc0_transform_4 i) (hinb0_4 i)).WholeWords (EltTy.packing .bf16)
  hrank1 : 0 < grid1.rank
  k1_mult1_dvd : ∀ i : grid1.Coords, 2048 ∣ (k1_mult1 i).toNat
  k1_off1_inb : ∀ i : grid1.Coords, ∀ a, (k1_off1 i) a + S2048x512.size a ≤ S10240x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S10240x10240.size a
  hwx1_0 : ∀ i : grid1.Coords, EltTy.bits .bf16 = 32 ∨ (Rect.block (s := S10240x10240) S1024x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x512.size a ≤ S10240x512.size a
  hwx1_1 : ∀ i : grid1.Coords, EltTy.bits .bf16 = 32 ∨ (Rect.block (s := S10240x512) S10240x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S10240x512.size a
  hwx1_4 : ∀ i : grid1.Coords, EltTy.bits .f32 = 32 ∨ (Rect.block (s := S10240x512) S1024x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x512.size a ≤ S10240x512.size a
  hwx1_5 : ∀ i : grid1.Coords, EltTy.bits .bf16 = 32 ∨ (Rect.block (s := S10240x512) S1024x512.size (cc1_transform_5 i) (hinb1_5 i)).WholeWords (EltTy.packing .bf16)
  hrank2 : 0 < grid2.rank
  k2_mult1_dvd : ∀ i : grid2.Coords, 2048 ∣ (k2_mult1 i).toNat
  k2_off1_inb : ∀ i : grid2.Coords, ∀ a, (k2_off1 i) a + S2048x512.size a ≤ S10240x512.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S10240x10240.size a
  hwx2_0 : ∀ i : grid2.Coords, EltTy.bits .bf16 = 32 ∨ (Rect.block (s := S10240x10240) S1024x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10240x512.size a ≤ S10240x512.size a
  hwx2_1 : ∀ i : grid2.Coords, EltTy.bits .bf16 = 32 ∨ (Rect.block (s := S10240x512) S10240x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .bf16 = 32 ∨ (Rect.block (s := S512x512) S512x512.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x512.size a ≤ S512x512.size a
  hwx2_4 : ∀ i : grid2.Coords, EltTy.bits .bf16 = 32 ∨ (Rect.block (s := S512x512) S512x512.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x512.size a
  hwx2_5 : ∀ i : grid2.Coords, EltTy.bits .f32 = 32 ∨ (Rect.block (s := S1x512) S1x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x512.size a ≤ S10240x512.size a
  hwx2_6 : ∀ i : grid2.Coords, EltTy.bits .f32 = 32 ∨ (Rect.block (s := S10240x512) S1024x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x512.size a ≤ S10240x512.size a
  hwx2_7 : ∀ i : grid2.Coords, EltTy.bits .f32 = 32 ∨ (Rect.block (s := S10240x512) S1024x512.size (cc2_transform_7 i) (hinb2_7 i)).WholeWords (EltTy.packing .f32)

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def scatter_S104857600_S160000x1_S160000_n_0_0_1 : ScatterDims S104857600 S160000x1 S160000 where
  updateWindowDims := []
  insertedWindowDims := [0]
  scatterDimsToOperandDims := [0]
  indexVectorDim := 1
  wf := scatter_S104857600_S160000x1_S160000_n_0_0_1_wf
def scatter_S10240x512_S1_S10000x512_01_n_0_0 : ScatterDims S10240x512 S1 S10000x512 where
  updateWindowDims := [0, 1]
  insertedWindowDims := []
  scatterDimsToOperandDims := [0]
  indexVectorDim := 0
  wf := scatter_S10240x512_S1_S10000x512_01_n_0_0_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v44) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S10240x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v49) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v52) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v55) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v44) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S10240x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56_0) S1024x512.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v56_1) S1024x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v44) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56_1) S10240x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S512x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S1x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v57_0) S1024x512.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v57_1) S1024x512.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

class Facts : Prop extends Facts₀ where

variable [Facts]
-- ==== ReferenceIdeal.lean ====
abbrev S10000x512 : Shape := ⟨2, ![10000, 512]⟩
abbrev S512x512 : Shape := ⟨2, ![512, 512]⟩
abbrev S512 : Shape := ⟨1, ![512]⟩
abbrev S160000 : Shape := ⟨1, ![160000]⟩
abbrev S_ : Shape := ⟨0, ![]⟩
abbrev S10000 : Shape := ⟨1, ![10000]⟩
abbrev S160000x1 : Shape := ⟨2, ![160000, 1]⟩
abbrev S10000x1 : Shape := ⟨2, ![10000, 1]⟩
abbrev S160000x512 : Shape := ⟨2, ![160000, 512]⟩
abbrev S1x512 : Shape := ⟨2, ![1, 512]⟩

abbrev nBuf : Space → Nat
  | .hbm => 140
  | .vmem => 0
  | .smem => 0
  | _ => 0

abbrev hbmTy0_0 (i : Nat) : BufTy := match i % 128 with
  | 0 => ⟨S10000x512, .f32⟩
  | 1 => ⟨S512x512, .f32⟩
  | 2 => ⟨S512, .f32⟩
  | 3 => ⟨S512x512, .f32⟩
  | 4 => ⟨S512, .f32⟩
  | 5 => ⟨S512x512, .f32⟩
  | 6 => ⟨S512, .f32⟩
  | 7 => ⟨S160000, .i32⟩
  | 8 => ⟨S160000, .i32⟩
  | 9 => ⟨S_, .f32⟩
  | 10 => ⟨S160000, .f32⟩
  | 11 => ⟨S_, .f32⟩
  | 12 => ⟨S10000, .f32⟩
  | 13 => ⟨S160000x1, .i32⟩
  | 14 => ⟨S10000, .f32⟩
  | 15 => ⟨S_, .f32⟩
  | 16 => ⟨S10000, .f32⟩
  | 17 => ⟨S160000x1, .i32⟩
  | 18 => ⟨S10000, .f32⟩
  | 19 => ⟨S_, .f32⟩
  | 20 => ⟨S10000, .f32⟩
  | 21 => ⟨S10000, .i1⟩
  | 22 => ⟨S_, .f32⟩
  | 23 => ⟨S10000, .f32⟩
  | 24 => ⟨S10000, .f32⟩
  | 25 => ⟨S_, .f32⟩
  | 26 => ⟨S_, .f32⟩
  | 27 => ⟨S10000, .f32⟩
  | 28 => ⟨S10000, .f32⟩
  | 29 => ⟨S_, .f32⟩
  | 30 => ⟨S10000, .f32⟩
  | 31 => ⟨S10000, .i1⟩
  | 32 => ⟨S_, .f32⟩
  | 33 => ⟨S10000, .f32⟩
  | 34 => ⟨S10000, .f32⟩
  | 35 => ⟨S_, .f32⟩
  | 36 => ⟨S_, .f32⟩
  | 37 => ⟨S10000, .f32⟩
  | 38 => ⟨S10000, .f32⟩
  | 39 => ⟨S10000x1, .f32⟩
  | 40 => ⟨S10000x512, .f32⟩
  | 41 => ⟨S10000x512, .f32⟩
  | 42 => ⟨S_, .i32⟩
  | 43 => ⟨S160000, .i32⟩
  | 44 => ⟨S160000, .i1⟩
  | 45 => ⟨S_, .i32⟩
  | 46 => ⟨S160000, .i32⟩
  | 47 => ⟨S160000, .i32⟩
  | 48 => ⟨S160000, .i32⟩
  | 49 => ⟨S160000x1, .i32⟩
  | 50 => ⟨S160000x512, .f32⟩
  | 51 => ⟨S_, .f32⟩
  | 52 => ⟨S10000x512, .f32⟩
  | 53 => ⟨S160000x1, .i32⟩
  | 54 => ⟨S10000x512, .f32⟩
  | 55 => ⟨S10000x1, .f32⟩
  | 56 => ⟨S10000x512, .f32⟩
  | 57 => ⟨S10000x512, .f32⟩
  | 58 => ⟨S10000x512, .f32⟩
  | 59 => ⟨S1x512, .f32⟩
  | 60 => ⟨S10000x512, .f32⟩
  | 61 => ⟨S10000x512, .f32⟩
  | 62 => ⟨S_, .f32⟩
  | 63 => ⟨S10000x512, .f32⟩
  | 64 => ⟨S10000x512, .f32⟩
  | 65 => ⟨S10000x1, .f32⟩
  | 66 => ⟨S10000x512, .f32⟩
  | 67 => ⟨S10000x512, .f32⟩
  | 68 => ⟨S_, .i32⟩
  | 69 => ⟨S160000, .i32⟩
  | 70 => ⟨S160000, .i1⟩
  | 71 => ⟨S_, .i32⟩
  | 72 => ⟨S160000, .i32⟩
  | 73 => ⟨S160000, .i32⟩
  | 74 => ⟨S160000, .i32⟩
  | 75 => ⟨S160000x1, .i32⟩
  | 76 => ⟨S160000x512, .f32⟩
  | 77 => ⟨S_, .f32⟩
  | 78 => ⟨S10000x512, .f32⟩
  | 79 => ⟨S160000x1, .i32⟩
  | 80 => ⟨S10000x512, .f32⟩
  | 81 => ⟨S10000x1, .f32⟩
  | 82 => ⟨S10000x512, .f32⟩
  | 83 => ⟨S10000x512, .f32⟩
  | 84 => ⟨S10000x512, .f32⟩
  | 85 => ⟨S1x512, .f32⟩
  | 86 => ⟨S10000x512, .f32⟩
  | 87 => ⟨S10000x512, .f32⟩
  | 88 => ⟨S_, .f32⟩
  | 89 => ⟨S10000x512, .f32⟩
  | 90 => ⟨S10000x512, .f32⟩
  | 91 => ⟨S10000x1, .f32⟩
  | 92 => ⟨S10000x512, .f32⟩
  | 93 => ⟨S10000x512, .f32⟩
  | 94 => ⟨S_, .i32⟩
  | 95 => ⟨S160000, .i32⟩
  | 96 => ⟨S160000, .i1⟩
  | 97 => ⟨S_, .i32⟩
  | 98 => ⟨S160000, .i32⟩
  | 99 => ⟨S160000, .i32⟩
  | 100 => ⟨S160000, .i32⟩
  | 101 => ⟨S160000x1, .i32⟩
  | 102 => ⟨S160000x512, .f32⟩
  | 103 => ⟨S_, .f32⟩
  | 104 => ⟨S10000x512, .f32⟩
  | 105 => ⟨S160000x1, .i32⟩
  | 106 => ⟨S10000x512, .f32⟩
  | 107 => ⟨S10000x1, .f32⟩
  | 108 => ⟨S10000x512, .f32⟩
  | 109 => ⟨S10000x512, .f32⟩
  | 110 => ⟨S10000x512, .f32⟩
  | 111 => ⟨S1x512, .f32⟩
  | 112 => ⟨S10000x512, .f32⟩
  | 113 => ⟨S10000x512, .f32⟩
  | 114 => ⟨S_, .f32⟩
  | 115 => ⟨S10000x512, .f32⟩
  | 116 => ⟨S10000x512, .f32⟩
  | 117 => ⟨S10000x1, .f32⟩
  | 118 => ⟨S10000x512, .f32⟩
  | 119 => ⟨S10000x512, .f32⟩
  | 120 => ⟨S_, .i32⟩
  | 121 => ⟨S160000, .i32⟩
  | 122 => ⟨S160000, .i1⟩
  | 123 => ⟨S_, .i32⟩
  | 124 => ⟨S160000, .i32⟩
  | 125 => ⟨S160000, .i32⟩
  | 126 => ⟨S160000, .i32⟩
  | 127 => ⟨S160000x1, .i32⟩
  | _ => ⟨S10000x512, .f32⟩

abbrev hbmTy0_1 (i : Nat) : BufTy := match i % 128 with
  | 0 => ⟨S160000x512, .f32⟩
  | 1 => ⟨S_, .f32⟩
  | 2 => ⟨S10000x512, .f32⟩
  | 3 => ⟨S160000x1, .i32⟩
  | 4 => ⟨S10000x512, .f32⟩
  | 5 => ⟨S10000x1, .f32⟩
  | 6 => ⟨S10000x512, .f32⟩
  | 7 => ⟨S10000x512, .f32⟩
  | 8 => ⟨S10000x512, .f32⟩
  | 9 => ⟨S1x512, .f32⟩
  | 10 => ⟨S10000x512, .f32⟩
  | 11 => ⟨S10000x512, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_v13 : Ref sig .tc := ⟨.hbm, 31, rfl⟩
abbrev main_cst_6 : Ref sig .tc := ⟨.hbm, 32, rfl⟩
abbrev main_v14 : Ref sig .tc := ⟨.hbm, 33, rfl⟩
abbrev main_v15 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c : Ref sig .tc := ⟨.hbm, 42, rfl⟩
abbrev main_v20 : Ref sig .tc := ⟨.hbm, 43, rfl⟩
abbrev main_v21 : Ref sig .tc := ⟨.hbm, 44, rfl⟩
abbrev main_c_8 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_9 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call2_cst : Ref sig .tc := ⟨.hbm, 62, rfl⟩
abbrev main_call2_v0 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_10 : Ref sig .tc := ⟨.hbm, 68, rfl⟩
abbrev main_v41 : Ref sig .tc := ⟨.hbm, 69, rfl⟩
abbrev main_v42 : Ref sig .tc := ⟨.hbm, 70, rfl⟩
abbrev main_c_11 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_12 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_call3_cst : Ref sig .tc := ⟨.hbm, 88, rfl⟩
abbrev main_call3_v0 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_13 : Ref sig .tc := ⟨.hbm, 94, rfl⟩
abbrev main_v62 : Ref sig .tc := ⟨.hbm, 95, rfl⟩
abbrev main_v63 : Ref sig .tc := ⟨.hbm, 96, rfl⟩
abbrev main_c_14 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_15 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_call4_cst : Ref sig .tc := ⟨.hbm, 114, rfl⟩
abbrev main_call4_v0 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_c_16 : Ref sig .tc := ⟨.hbm, 120, rfl⟩
abbrev main_v83 : Ref sig .tc := ⟨.hbm, 121, rfl⟩
abbrev main_v84 : Ref sig .tc := ⟨.hbm, 122, rfl⟩
abbrev main_c_17 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_18 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩

abbrev nD : Nat := 1
abbrev τ : Topo := Topo.v7x

variable {F : FTy → Type} [FloatOps F]

class Facts₀ : Prop where
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  scatter_S10000_S160000x1_S160000_n_0_0_1_wf : ScatterDims.WF S10000 S160000x1 S160000 [] [0] [0] 1
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S10000x512_S512x512_S10000x512_1_0_0_1_n_n_wf : DotDims.WF S10000x512 S512x512 S10000x512 [1] [0] [0] [1] [] []

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf

class Facts : Prop extends Facts₀ where

variable [Facts]
-- ==== Proof.R0Runs.lean ====
import proofs.«413367_j60610578482006_3_alg».proof.Proof.Gen.KernelIdeal.Launch
import proofs.«413367_j60610578482006_3_alg».proof.Proof.Gen.KernelIdeal.Skeleton
import proofs.«413367_j60610578482006_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)

abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel

theorem liveAt0_4 : ∀ t : Fin cfg0.N, cond0_1 (grid0.coords t) → cfg0.idle 4 (grid0.coords t) = false := by decide +kernel

abbrev VO0_4 : View sig .tc .vmem S1024x512 .bf16 := (Memref.whole cc0_stg4_0 : Memref sig .tc .vmem S1024x512 .bf16).view
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10240x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x512 .bf16 := win0_4.stage (cfg0.slots t 4)
abbrev hs0_4 (t : Fin cfg0.N) : (ms0_4 t).IsWhole := hstage0_4 ((cfg0.slots t 4).cast nbuf0_4)

abbrev scM0 : Memref sig .tc .vmem S1024x512 .f32 := Memref.whole cc0_scratch0
abbrev VS0 : View sig .tc .vmem S1024x512 .f32 := scM0.view

def others0 (c : Dev nD) : sProp 𝕄 :=
  Classical.choose (show ∃ R : sProp 𝕄, (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ R) from ⟨_, scopedRest0_eq c⟩)

theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ others0 (F := F) c) :=
  Classical.choose_spec (show ∃ R : sProp 𝕄, (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ R) from ⟨_, scopedRest0_eq c⟩)

theorem PhiA0_eq (c : Dev nD) :
    (Pipeline.ΦA spec0 c : sProp 𝕄)
      = iprop(iprop((∃ d, owns (c : Thread nD τ) scM0 fullShare d) ∗ others0 (F := F) c) ∗ (∃ r, prngReg c r)) := by
  unfold Pipeline.ΦA; rw [scopedRest0_split]; simp only [scM0, owns_whole]; try rfl

/-- The body's operands: the grid point's coordinates and the whole buffers it is called with. -/
structure Ops0 where
  i : grid0.Coords
  arg2 : Memref sig .tc .vmem S1024x2048 .bf16
  harg2 : arg2.IsWhole
  arg3 : Memref sig .tc .vmem S10240x512 .bf16
  harg3 : arg3.IsWhole
  arg4 : Memref sig .tc .vmem S512x512 .bf16
  harg4 : arg4.IsWhole
  arg5 : Memref sig .tc .vmem S1x512 .f32
  harg5 : arg5.IsWhole
  arg6 : Memref sig .tc .vmem S1024x512 .bf16
  harg6 : arg6.IsWhole
  arg7 : Memref sig .tc .vmem S1024x512 .f32
  harg7 : arg7.IsWhole

/-- The operands at point `t`. -/
abbrev ops0 (t : Fin cfg0.N) : Ops0 :=
  ⟨grid0.coords t, ms0_0 t, hs0_0 t, ms0_1 t, hs0_1 t, ms0_2 t, hs0_2 t, ms0_3 t, hs0_3 t, ms0_4 t, hs0_4 t, scM0, Memref.isWhole_whole _⟩

end Cert.KernelIdeal.Fr

end
-- ==== Proof.R0RunA.lean ====
import proofs.«413367_j60610578482006_3_alg».proof.Proof.R0Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_A (c : Dev nD) (o : Ops0) (hc0 : cond0_0 o.i) (hc1 : ¬cond0_1 o.i)
    (x0 : Vec F S1024x2048 .bf16) (x1 : Vec F S10240x512 .bf16) (x2 : Vec F S512x512 .bf16) (x3 : Vec F S1x512 .f32) :
    Σ' (L4 : List (View.Piece (Elt F) S1024x512 .bf16)), { LS0 : List (View.Piece (Elt F) S1024x512 .f32) //
      ∀ (xi4 : Vec F S1024x512 .bf16) (E : Set ℕ) (K : PUnit → sProp 𝕄),
        iprop(owns (c : Thread nD τ) o.arg2 fullShare x0 ∗ owns (c : Thread nD τ) o.arg3 fullShare x1 ∗ owns (c : Thread nD τ) o.arg4 fullShare x2 ∗ owns (c : Thread nD τ) o.arg5 fullShare x3 ∗ owns (c : Thread nD τ) o.arg6 fullShare xi4 ∗ (∃ d, owns (c : Thread nD τ) o.arg7 fullShare d)
            ∗ (iprop(owns (c : Thread nD τ) o.arg2 fullShare x0 ∗ owns (c : Thread nD τ) o.arg3 fullShare x1 ∗ owns (c : Thread nD τ) o.arg4 fullShare x2 ∗ owns (c : Thread nD τ) o.arg5 fullShare x3 ∗ owns (c : Thread nD τ) o.arg6 fullShare xi4 ∗ (∃ f, o.arg7.view.loc (c : Thread nD τ) ↦[o.arg7.view.set]{fullShare} o.arg7.view.writes (Elt F) f LS0)) -∗ K ⟨⟩))
          ⊢ wp frame (wpE (defs₀ (F := F)) Variants.none c none) E (cc0_kernel o.i o.arg2 o.harg2 o.arg3 o.harg3 o.arg4 o.harg4 o.arg5 o.harg5 o.arg6 o.harg6 o.arg7 o.harg7) K } := by
  refine ⟨[], ?_, fun xi4 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := o.harg2.eq_unread hf0; obtain rfl := o.harg3.eq_unread hf1; obtain rfl := o.harg4.eq_unread hf2
    obtain rfl := o.harg5.eq_unread hf3; obtain rfl := o.harg6.eq_unread hf4
    sl_exec (disch := first | exact hc0 | exact hc1)
    sl_step
    iapply Hk
    isplitl [H0]
    · iexists _; isplitr; · ipureintro; exact o.harg2.read_unread _
      iexact H0
    isplitl [H1]
    · iexists _; isplitr; · ipureintro; exact o.harg3.read_unread _
      iexact H1
    isplitl [H2]
    · iexists _; isplitr; · ipureintro; exact o.harg4.read_unread _
      iexact H2
    isplitl [H3]
    · iexists _; isplitr; · ipureintro; exact o.harg5.read_unread _
      iexact H3
    isplitl [H4]
    · iexists _; isplitr; · ipureintro; exact o.harg6.read_unread _
      iexact H4
    iexists _; iexact HS0

end Cert.KernelIdeal.Fr

end
-- ==== Proof.R0RunB.lean ====
import proofs.«413367_j60610578482006_3_alg».proof.Proof.R0RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_B (c : Dev nD) (o : Ops0) (hc0 : ¬cond0_0 o.i) (hc1 : ¬cond0_1 o.i)
    (x0 : Vec F S1024x2048 .bf16) (x1 : Vec F S10240x512 .bf16) (x2 : Vec F S512x512 .bf16) (x3 : Vec F S1x512 .f32) (xs0 : Vec F S1024x512 .f32) :
    Σ' (L4 : List (View.Piece (Elt F) S1024x512 .bf16)), { LS0 : List (View.Piece (Elt F) S1024x512 .f32) //
      ∀ (xi4 : Vec F S1024x512 .bf16) (E : Set ℕ) (K : PUnit → sProp 𝕄),
        iprop(owns (c : Thread nD τ) o.arg2 fullShare x0 ∗ owns (c : Thread nD τ) o.arg3 fullShare x1 ∗ owns (c : Thread nD τ) o.arg4 fullShare x2 ∗ owns (c : Thread nD τ) o.arg5 fullShare x3 ∗ owns (c : Thread nD τ) o.arg6 fullShare xi4 ∗ owns (c : Thread nD τ) o.arg7 fullShare xs0
            ∗ (iprop(owns (c : Thread nD τ) o.arg2 fullShare x0 ∗ owns (c : Thread nD τ) o.arg3 fullShare x1 ∗ owns (c : Thread nD τ) o.arg4 fullShare x2 ∗ owns (c : Thread nD τ) o.arg5 fullShare x3 ∗ owns (c : Thread nD τ) o.arg6 fullShare xi4 ∗ (∃ f, o.arg7.view.loc (c : Thread nD τ) ↦[o.arg7.view.set]{fullShare} o.arg7.view.writes (Elt F) f LS0)) -∗ K ⟨⟩))
          ⊢ wp frame (wpE (defs₀ (F := F)) Variants.none c none) E (cc0_kernel o.i o.arg2 o.harg2 o.arg3 o.harg3 o.arg4 o.harg4 o.arg5 o.harg5 o.arg6 o.harg6 o.arg7 o.harg7) K } := by
  refine ⟨[], ?_, fun xi4 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := o.harg2.eq_unread hf0; obtain rfl := o.harg3.eq_unread hf1; obtain rfl := o.harg4.eq_unread hf2
    obtain rfl := o.harg5.eq_unread hf3; obtain rfl := o.harg6.eq_unread hf4; obtain rfl := o.harg7.eq_unread hfs0
    sl_exec (disch := first | exact hc0 | exact hc1)
    sl_step
    iapply Hk
    isplitl [H0]
    · iexists _; isplitr; · ipureintro; exact o.harg2.read_unread _
      iexact H0
    isplitl [H1]
    · iexists _; isplitr; · ipureintro; exact o.harg3.read_unread _
      iexact H1
    isplitl [H2]
    · iexists _; isplitr; · ipureintro; exact o.harg4.read_unread _
      iexact H2
    isplitl [H3]
    · iexists _; isplitr; · ipureintro; exact o.harg5.read_unread _
      iexact H3
    isplitl [H4]
    · iexists _; isplitr; · ipureintro; exact o.harg6.read_unread _
      iexact H4
    iexists _; iexact HS0

end Cert.KernelIdeal.Fr

end
-- ==== Proof.R0RunC.lean ====
import proofs.«413367_j60610578482006_3_alg».proof.Proof.R0RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

noncomputable def kernelRun0_C (c : Dev nD) (o : Ops0) (hc0 : ¬cond0_0 o.i) (hc1 : cond0_1 o.i)
    (x0 : Vec F S1024x2048 .bf16) (x1 : Vec F S10240x512 .bf16) (x2 : Vec F S512x512 .bf16) (x3 : Vec F S1x512 .f32) (xs0 : Vec F S1024x512 .f32) :
    Σ' (L4 : List (View.Piece (Elt F) S1024x512 .bf16)), { LS0 : List (View.Piece (Elt F) S1024x512 .f32) //
      ∀ (E : Set ℕ) (K : PUnit → sProp 𝕄),
        iprop(owns (c : Thread nD τ) o.arg2 fullShare x0 ∗ owns (c : Thread nD τ) o.arg3 fullShare x1 ∗ owns (c : Thread nD τ) o.arg4 fullShare x2 ∗ owns (c : Thread nD τ) o.arg5 fullShare x3 ∗ (∃ d, owns (c : Thread nD τ) o.arg6 fullShare d) ∗ owns (c : Thread nD τ) o.arg7 fullShare xs0
            ∗ (iprop(owns (c : Thread nD τ) o.arg2 fullShare x0 ∗ owns (c : Thread nD τ) o.arg3 fullShare x1 ∗ owns (c : Thread nD τ) o.arg4 fullShare x2 ∗ owns (c : Thread nD τ) o.arg5 fullShare x3 ∗ (∃ f, o.arg6.view.loc (c : Thread nD τ) ↦[o.arg6.view.set]{fullShare} o.arg6.view.writes (Elt F) f L4) ∗ (∃ f, o.arg7.view.loc (c : Thread nD τ) ↦[o.arg7.view.set]{fullShare} o.arg7.view.writes (Elt F) f LS0)) -∗ K ⟨⟩))
          ⊢ wp frame (wpE (defs₀ (F := F)) Variants.none c none) E (cc0_kernel o.i o.arg2 o.harg2 o.arg3 o.harg3 o.arg4 o.harg4 o.arg5 o.harg5 o.arg6 o.harg6 o.arg7 o.harg7) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := o.harg2.eq_unread hf0; obtain rfl := o.harg3.eq_unread hf1; obtain rfl := o.harg4.eq_unread hf2
    obtain rfl := o.harg5.eq_unread hf3; obtain rfl := o.harg7.eq_unread hfs0
    sl_exec (disch := first | exact hc0 | exact hc1)
    sl_step
    iapply Hk
    isplitl [H0]
    · iexists _; isplitr; · ipureintro; exact o.harg2.read_unread _
      iexact H0
    isplitl [H1]
    · iexists _; isplitr; · ipureintro; exact o.harg3.read_unread _
      iexact H1
    isplitl [H2]
    · iexists _; isplitr; · ipureintro; exact o.harg4.read_unread _
      iexact H2
    isplitl [H3]
    · iexists _; isplitr; · ipureintro; exact o.harg5.read_unread _
      iexact H3
    isplitl [H4]; · iexists _; iexact H4
    iexists _; iexact HS0

end Cert.KernelIdeal.Fr

end
-- ==== Proof.R0Frame.lean ====
import proofs.«413367_j60610578482006_3_alg».proof.Proof.R0RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (o : Ops0)

section
variable (hc0 : cond0_0 o.i) (hc1 : ¬cond0_1 o.i) (x0 : Vec F S1024x2048 .bf16) (x1 : Vec F S10240x512 .bf16) (x2 : Vec F S512x512 .bf16) (x3 : Vec F S1x512 .f32)

def out0_A_4 : Vec F S1024x512 .bf16 :=
  VO0_4.read (Elt F) (VO0_4.writes (Elt F) VO0_4.junk (kernelRun0_A c o hc0 hc1 x0 x1 x2 x3).1)

theorem scover0_A (y : S1024x512.Idx) :
    ∃ pc ∈ (kernelRun0_A c o hc0 hc1 x0 x1 x2 x3).2.1, y ∈ pc.1.set :=
  View.cover_of_tiledL (kernelRun0_A c o hc0 hc1 x0 x1 x2 x3).2.1 S1024x512.size (by sl_kernel_rfl) y

def sout0_A : Vec F S1024x512 .f32 :=
  VS0.read (Elt F) (VS0.writes (Elt F) VS0.junk (kernelRun0_A c o hc0 hc1 x0 x1 x2 x3).2.1)

end

section
variable (hc0 : ¬cond0_0 o.i) (hc1 : ¬cond0_1 o.i) (x0 : Vec F S1024x2048 .bf16) (x1 : Vec F S10240x512 .bf16) (x2 : Vec F S512x512 .bf16) (x3 : Vec F S1x512 .f32) (xs0 : Vec F S1024x512 .f32)

def out0_B_4 : Vec F S1024x512 .bf16 :=
  VO0_4.read (Elt F) (VO0_4.writes (Elt F) VO0_4.junk (kernelRun0_B c o hc0 hc1 x0 x1 x2 x3 xs0).1)
theorem scover0_B (y : S1024x512.Idx) :
    ∃ pc ∈ (kernelRun0_B c o hc0 hc1 x0 x1 x2 x3 xs0).2.1, y ∈ pc.1.set :=
  View.cover_of_tiledL (kernelRun0_B c o hc0 hc1 x0 x1 x2 x3 xs0).2.1 S1024x512.size (by sl_kernel_rfl) y
def sout0_B : Vec F S1024x512 .f32 :=
  VS0.read (Elt F) (VS0.writes (Elt F) VS0.junk (kernelRun0_B c o hc0 hc1 x0 x1 x2 x3 xs0).2.1)

end

section
variable (hc0 : ¬cond0_0 o.i) (hc1 : cond0_1 o.i) (x0 : Vec F S1024x2048 .bf16) (x1 : Vec F S10240x512 .bf16) (x2 : Vec F S512x512 .bf16) (x3 : Vec F S1x512 .f32) (xs0 : Vec F S1024x512 .f32)

theorem cover0_C_4 (y : S1024x512.Idx) :
    ∃ pc ∈ (kernelRun0_C c o hc0 hc1 x0 x1 x2 x3 xs0).1, y ∈ pc.1.set :=
  View.cover_of_tiledL (kernelRun0_C c o hc0 hc1 x0 x1 x2 x3 xs0).1 S1024x512.size (by sl_kernel_rfl) y

def out0_C_4 : Vec F S1024x512 .bf16 :=
  VO0_4.read (Elt F) (VO0_4.writes (Elt F) VO0_4.junk (kernelRun0_C c o hc0 hc1 x0 x1 x2 x3 xs0).1)

theorem scover0_C (y : S1024x512.Idx) :
    ∃ pc ∈ (kernelRun0_C c o hc0 hc1 x0 x1 x2 x3 xs0).2.1, y ∈ pc.1.set :=
  View.cover_of_tiledL (kernelRun0_C c o hc0 hc1 x0 x1 x2 x3 xs0).2.1 S1024x512.size (by sl_kernel_rfl) y

def sout0_C : Vec F S1024x512 .f32 :=
  VS0.read (Elt F) (VS0.writes (Elt F) VS0.junk (kernelRun0_C c o hc0 hc1 x0 x1 x2 x3 xs0).2.1)

end

end

/-- What the output blocks and the accumulator hold after the `n`-th point, by the point's place in its row of five. -/
def outsAt0 (c : Dev nD) : (n : ℕ) → n < cfg0.N → Vec F S1024x512 .bf16 × Vec F S1024x512 .f32
  | 0, hn => (out0_A_4 c (ops0 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A c (ops0 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 5 = 0 then
      if h1 : (n + 1) % 5 = 4 then
        False.elim (by omega)
      else
        (out0_A_4 c (ops0 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A c (ops0 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 5 = 4 then
        (out0_C_4 c (ops0 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C c (ops0 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (ops0 ⟨n + 1, hn⟩) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B c (ops0 ⟨n + 1, hn⟩) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 5 = 0) (h1 : ¬t.val % 5 = 4) :
    outsAt0 V c t.val t.isLt = (out0_A_4 c (ops0 t) ((hcond0_0 t).mpr h0) (fun h => h1 ((hcond0_1 t).mp h)) (iblk0 V c 0 t) (iblk0 V c 1 t) (iblk0 V c 2 t) (iblk0 V c 3 t), sout0_A c (ops0 t) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 5 = 0) (h1 : ¬t.val % 5 = 4) :
    outsAt0 V c t.val t.isLt = (out0_B_4 c (ops0 t) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B c (ops0 t) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 5 = 0) (h1 : t.val % 5 = 4) :
    outsAt0 V c t.val t.isLt = (out0_C_4 c (ops0 t) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C c (ops0 t) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ others0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ others0 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- At every point the body takes the accumulator the point before left and leaves this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 50 := lt_of_lt_of_eq t.isLt (show cfg0.N = 50 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val % 5 = 0
  · by_cases h1 : t.val % 5 = 4
    · exfalso; omega
    ·
      rw [Dat.leavesExact_idle (dat0 V c) 4 t (idleAt0_4 t (fun h => h1 ((hcond0_1 t).mp h))) (noFlush0_4 t (fun h => h1 ((hcond0_1 t).mp h)))]
      rw [outsAt0_A V c t h0 h1]
      unfold sout0_A; (try dsimp only)
      by_cases hz : t.val = 0
      · rw [PhiS0_castSucc V c t, PhiS0_zero V c _ _ hz, PhiA0_eq]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_A c (ops0 t) ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A c _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_A c (ops0 t) ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A c _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
  · by_cases h1 : t.val % 5 = 4
    ·
      rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_4 sout0_C; (try dsimp only)
      by_cases hz : t.val = 0
      · exfalso; omega
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_C c (ops0 t) (fun h => h0 ((hcond0_0 t).mp h)) ((hcond0_1 t).mpr h1) (iblk0 V c 0 t) (iblk0 V c 1 t) (iblk0 V c 2 t) (iblk0 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_C c _ _ _ _ _ _ _ _)
            iexact Hoth
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _)
    ·
      rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B; (try dsimp only)
      by_cases hz : t.val = 0
      · exfalso; omega
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_B c (ops0 t) (fun h => h0 ((hcond0_0 t).mp h)) (fun h => h1 ((hcond0_1 t).mp h)) (iblk0 V c 0 t) (iblk0 V c 1 t) (iblk0 V c 2 t) (iblk0 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_B c _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 50 := N_0; omega), PhiA0_eq]
  iintro ⟨⟨HS0, Hoth⟩, Hg⟩
  isplitl [HS0 Hoth]
  · isplitl [HS0]
    · iexists _; iexact HS0
    iexact Hoth
  iexact Hg

end Cert.KernelIdeal.Fr

end
-- ==== Proof.R1Frame.lean ====
import proofs.«413367_j60610578482006_3_alg».proof.Proof.Gen.KernelIdeal.Launch
import proofs.«413367_j60610578482006_3_alg».proof.Proof.Gen.KernelIdeal.Skeleton
import proofs.«413367_j60610578482006_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 5 = 0 :=
  (by decide +kernel : ∀ t : Fin grid1.N, cond1_0 (grid1.coords t) ↔ t.val % 5 = 0)

abbrev cond1_1 (i : grid1.Coords) : Prop := k1_cond2 i = 1#1
theorem hcond1_1 : ∀ t : Fin cfg1.N, cond1_1 (grid1.coords t) ↔ t.val % 5 = 4 :=
  (by decide +kernel : ∀ t : Fin grid1.N, cond1_1 (grid1.coords t) ↔ t.val % 5 = 4)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel

theorem liveAt1_4 : ∀ t : Fin cfg1.N, cond1_1 (grid1.coords t) → cfg1.idle 4 (grid1.coords t) = false := by decide +kernel

theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

abbrev VO1_4 : View sig .tc .vmem S1024x512 .f32 := (Memref.whole cc1_stg4_0 : Memref sig .tc .vmem S1024x512 .f32).view
abbrev VO1_5 : View sig .tc .vmem S1024x512 .bf16 := (Memref.whole cc1_stg5_0 : Memref sig .tc .vmem S1024x512 .bf16).view
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10240x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x512 .bf16 := win1_5.stage (cfg1.slots t 5)
abbrev hs1_5 (t : Fin cfg1.N) : (ms1_5 t).IsWhole := hstage1_5 ((cfg1.slots t 5).cast nbuf1_5)

abbrev scM1 : Memref sig .tc .vmem S1024x512 .f32 := Memref.whole cc1_scratch0
abbrev VS1 : View sig .tc .vmem S1024x512 .f32 := scM1.view

theorem sep_swap1 {M : Type} [URA M] (P Q R : sProp M) : iprop(P ∗ Q ∗ R) = iprop(Q ∗ P ∗ R) :=
  Idealize.SL.BI.Entails.antisymm (sep_left_comm (PROP := sProp M) (P := P) (Q := Q) (R := R)).1 (sep_left_comm (PROP := sProp M) (P := Q) (Q := P) (R := R)).1

theorem sep_pull1 {M : Type} [URA M] (P0 P1 P2 P3 P4 P5 P6 P7 S T : sProp M) :
    iprop(P0 ∗ P1 ∗ P2 ∗ P3 ∗ P4 ∗ P5 ∗ P6 ∗ P7 ∗ S ∗ T) = iprop(S ∗ P0 ∗ P1 ∗ P2 ∗ P3 ∗ P4 ∗ P5 ∗ P6 ∗ P7 ∗ T) := by
  rw [sep_swap1 P7 S T, sep_swap1 P6 S, sep_swap1 P5 S, sep_swap1 P4 S, sep_swap1 P3 S, sep_swap1 P2 S, sep_swap1 P1 S, sep_swap1 P0 S]

theorem scopedRest1_pull (c : Dev nD) : ∃ R : sProp 𝕄, (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ R) :=
  ⟨_, (scopedRest1_eq c).trans (sep_pull1 _ _ _ _ _ _ _ _ _ _)⟩

def others1 (c : Dev nD) : sProp 𝕄 := Classical.choose (scopedRest1_pull (F := F) c)

theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ others1 (F := F) c) :=
  Classical.choose_spec (scopedRest1_pull (F := F) c)

theorem PhiA1_eq (c : Dev nD) :
    (Pipeline.ΦA spec1 c : sProp 𝕄)
      = iprop(iprop((∃ d, owns (c : Thread nD τ) scM1 fullShare d) ∗ others1 (F := F) c) ∗ (∃ r, prngReg c r)) := by
  unfold Pipeline.ΦA; rw [scopedRest1_split]; simp only [scM1, owns_whole]; try rfl

/-- The body's operands: the grid point's coordinates and the whole buffers it is called with. -/
structure Ops1 where
  i : grid1.Coords
  arg2 : Memref sig .tc .vmem S1024x2048 .bf16
  harg2 : arg2.IsWhole
  arg3 : Memref sig .tc .vmem S10240x512 .bf16
  harg3 : arg3.IsWhole
  arg4 : Memref sig .tc .vmem S512x512 .bf16
  harg4 : arg4.IsWhole
  arg5 : Memref sig .tc .vmem S1x512 .f32
  harg5 : arg5.IsWhole
  arg6 : Memref sig .tc .vmem S1024x512 .f32
  harg6 : arg6.IsWhole
  arg7 : Memref sig .tc .vmem S1024x512 .bf16
  harg7 : arg7.IsWhole
  arg8 : Memref sig .tc .vmem S1024x512 .f32
  harg8 : arg8.IsWhole

/-- The operands at point `t`. -/
abbrev ops1 (t : Fin cfg1.N) : Ops1 :=
  ⟨grid1.coords t, ms1_0 t, hs1_0 t, ms1_1 t, hs1_1 t, ms1_2 t, hs1_2 t, ms1_3 t, hs1_3 t, ms1_4 t, hs1_4 t, ms1_5 t, hs1_5 t, scM1, Memref.isWhole_whole _⟩

section
variable (c : Dev nD) (o : Ops1)

section
variable (hc0 : cond1_0 o.i) (hc1 : ¬cond1_1 o.i) (x0 : Vec F S1024x2048 .bf16) (x1 : Vec F S10240x512 .bf16) (x2 : Vec F S512x512 .bf16) (x3 : Vec F S1x512 .f32)

set_option maxHeartbeats 4000000 in
noncomputable def kernelRun1_A :
    Σ' (L4 : List (View.Piece (Elt F) S1024x512 .f32)) (L5 : List (View.Piece (Elt F) S1024x512 .bf16)), { LS0 : List (View.Piece (Elt F) S1024x512 .f32) //
      ∀ (xi4 : Vec F S1024x512 .f32) (xi5 : Vec F S1024x512 .bf16) (E : Set ℕ) (K : PUnit → sProp 𝕄),
        iprop(owns (c : Thread nD τ) o.arg2 fullShare x0 ∗ owns (c : Thread nD τ) o.arg3 fullShare x1 ∗ owns (c : Thread nD τ) o.arg4 fullShare x2 ∗ owns (c : Thread nD τ) o.arg5 fullShare x3 ∗ owns (c : Thread nD τ) o.arg6 fullShare xi4 ∗ owns (c : Thread nD τ) o.arg7 fullShare xi5 ∗ (∃ d, owns (c : Thread nD τ) o.arg8 fullShare d)
            ∗ (iprop(owns (c : Thread nD τ) o.arg2 fullShare x0 ∗ owns (c : Thread nD τ) o.arg3 fullShare x1 ∗ owns (c : Thread nD τ) o.arg4 fullShare x2 ∗ owns (c : Thread nD τ) o.arg5 fullShare x3 ∗ owns (c : Thread nD τ) o.arg6 fullShare xi4 ∗ owns (c : Thread nD τ) o.arg7 fullShare xi5 ∗ (∃ f, o.arg8.view.loc (c : Thread nD τ) ↦[o.arg8.view.set]{fullShare} o.arg8.view.writes (Elt F) f LS0)) -∗ K ⟨⟩))
          ⊢ wp frame (wpE (defs₀ (F := F)) Variants.none c none) E (cc1_kernel o.i o.arg2 o.harg2 o.arg3 o.harg3 o.arg4 o.harg4 o.arg5 o.harg5 o.arg6 o.harg6 o.arg7 o.harg7 o.arg8 o.harg8) K } := by
  refine ⟨[], [], ?_, fun xi4 xi5 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := o.harg2.eq_unread hf0; obtain rfl := o.harg3.eq_unread hf1; obtain rfl := o.harg4.eq_unread hf2
    obtain rfl := o.harg5.eq_unread hf3; obtain rfl := o.harg6.eq_unread hf4; obtain rfl := o.harg7.eq_unread hf5
    sl_exec (disch := first | exact hc0 | exact hc1)
    sl_step
    iapply Hk
    isplitl [H0]
    · iexists _; isplitr; · ipureintro; exact o.harg2.read_unread _
      iexact H0
    isplitl [H1]
    · iexists _; isplitr; · ipureintro; exact o.harg3.read_unread _
      iexact H1
    isplitl [H2]
    · iexists _; isplitr; · ipureintro; exact o.harg4.read_unread _
      iexact H2
    isplitl [H3]
    · iexists _; isplitr; · ipureintro; exact o.harg5.read_unread _
      iexact H3
    isplitl [H4]
    · iexists _; isplitr; · ipureintro; exact o.harg6.read_unread _
      iexact H4
    isplitl [H5]
    · iexists _; isplitr; · ipureintro; exact o.harg7.read_unread _
      iexact H5
    iexists _; iexact HS0

end

section
variable (hc0 : ¬cond1_0 o.i) (hc1 : ¬cond1_1 o.i) (x0 : Vec F S1024x2048 .bf16) (x1 : Vec F S10240x512 .bf16) (x2 : Vec F S512x512 .bf16) (x3 : Vec F S1x512 .f32) (xs0 : Vec F S1024x512 .f32)

set_option maxHeartbeats 4000000 in
noncomputable def kernelRun1_B :
    Σ' (L4 : List (View.Piece (Elt F) S1024x512 .f32)) (L5 : List (View.Piece (Elt F) S1024x512 .bf16)), { LS0 : List (View.Piece (Elt F) S1024x512 .f32) //
      ∀ (xi4 : Vec F S1024x512 .f32) (xi5 : Vec F S1024x512 .bf16) (E : Set ℕ) (K : PUnit → sProp 𝕄),
        iprop(owns (c : Thread nD τ) o.arg2 fullShare x0 ∗ owns (c : Thread nD τ) o.arg3 fullShare x1 ∗ owns (c : Thread nD τ) o.arg4 fullShare x2 ∗ owns (c : Thread nD τ) o.arg5 fullShare x3 ∗ owns (c : Thread nD τ) o.arg6 fullShare xi4 ∗ owns (c : Thread nD τ) o.arg7 fullShare xi5 ∗ owns (c : Thread nD τ) o.arg8 fullShare xs0
            ∗ (iprop(owns (c : Thread nD τ) o.arg2 fullShare x0 ∗ owns (c : Thread nD τ) o.arg3 fullShare x1 ∗ owns (c : Thread nD τ) o.arg4 fullShare x2 ∗ owns (c : Thread nD τ) o.arg5 fullShare x3 ∗ owns (c : Thread nD τ) o.arg6 fullShare xi4 ∗ owns (c : Thread nD τ) o.arg7 fullShare xi5 ∗ (∃ f, o.arg8.view.loc (c : Thread nD τ) ↦[o.arg8.view.set]{fullShare} o.arg8.view.writes (Elt F) f LS0)) -∗ K ⟨⟩))
          ⊢ wp frame (wpE (defs₀ (F := F)) Variants.none c none) E (cc1_kernel o.i o.arg2 o.harg2 o.arg3 o.harg3 o.arg4 o.harg4 o.arg5 o.harg5 o.arg6 o.harg6 o.arg7 o.harg7 o.arg8 o.harg8) K } := by
  refine ⟨[], [], ?_, fun xi4 xi5 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := o.harg2.eq_unread hf0; obtain rfl := o.harg3.eq_unread hf1; obtain rfl := o.harg4.eq_unread hf2
    obtain rfl := o.harg5.eq_unread hf3; obtain rfl := o.harg6.eq_unread hf4; obtain rfl := o.harg7.eq_unread hf5
    obtain rfl := o.harg8.eq_unread hfs0
    sl_exec (disch := first | exact hc0 | exact hc1)
    sl_step
    iapply Hk
    isplitl [H0]
    · iexists _; isplitr; · ipureintro; exact o.harg2.read_unread _
      iexact H0
    isplitl [H1]
    · iexists _; isplitr; · ipureintro; exact o.harg3.read_unread _
      iexact H1
    isplitl [H2]
    · iexists _; isplitr; · ipureintro; exact o.harg4.read_unread _
      iexact H2
    isplitl [H3]
    · iexists _; isplitr; · ipureintro; exact o.harg5.read_unread _
      iexact H3
    isplitl [H4]
    · iexists _; isplitr; · ipureintro; exact o.harg6.read_unread _
      iexact H4
    isplitl [H5]
    · iexists _; isplitr; · ipureintro; exact o.harg7.read_unread _
      iexact H5
    iexists _; iexact HS0

end

section
variable (hc0 : ¬cond1_0 o.i) (hc1 : cond1_1 o.i) (x0 : Vec F S1024x2048 .bf16) (x1 : Vec F S10240x512 .bf16) (x2 : Vec F S512x512 .bf16) (x3 : Vec F S1x512 .f32) (xs0 : Vec F S1024x512 .f32)

set_option maxHeartbeats 4000000 in
noncomputable def kernelRun1_C :
    Σ' (L4 : List (View.Piece (Elt F) S1024x512 .f32)) (L5 : List (View.Piece (Elt F) S1024x512 .bf16)), { LS0 : List (View.Piece (Elt F) S1024x512 .f32) //
      ∀ (E : Set ℕ) (K : PUnit → sProp 𝕄),
        iprop(owns (c : Thread nD τ) o.arg2 fullShare x0 ∗ owns (c : Thread nD τ) o.arg3 fullShare x1 ∗ owns (c : Thread nD τ) o.arg4 fullShare x2 ∗ owns (c : Thread nD τ) o.arg5 fullShare x3 ∗ (∃ d, owns (c : Thread nD τ) o.arg6 fullShare d) ∗ (∃ d, owns (c : Thread nD τ) o.arg7 fullShare d) ∗ owns (c : Thread nD τ) o.arg8 fullShare xs0
            ∗ (iprop(owns (c : Thread nD τ) o.arg2 fullShare x0 ∗ owns (c : Thread nD τ) o.arg3 fullShare x1 ∗ owns (c : Thread nD τ) o.arg4 fullShare x2 ∗ owns (c : Thread nD τ) o.arg5 fullShare x3 ∗ (∃ f, o.arg6.view.loc (c : Thread nD τ) ↦[o.arg6.view.set]{fullShare} o.arg6.view.writes (Elt F) f L4) ∗ (∃ f, o.arg7.view.loc (c : Thread nD τ) ↦[o.arg7.view.set]{fullShare} o.arg7.view.writes (Elt F) f L5) ∗ (∃ f, o.arg8.view.loc (c : Thread nD τ) ↦[o.arg8.view.set]{fullShare} o.arg8.view.writes (Elt F) f LS0)) -∗ K ⟨⟩))
          ⊢ wp frame (wpE (defs₀ (F := F)) Variants.none c none) E (cc1_kernel o.i o.arg2 o.harg2 o.arg3 o.harg3 o.arg4 o.harg4 o.arg5 o.harg5 o.arg6 o.harg6 o.arg7 o.harg7 o.arg8 o.harg8) K } := by
  refine ⟨?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := o.harg2.eq_unread hf0; obtain rfl := o.harg3.eq_unread hf1; obtain rfl := o.harg4.eq_unread hf2
    obtain rfl := o.harg5.eq_unread hf3; obtain rfl := o.harg8.eq_unread hfs0
    sl_exec (disch := first | exact hc0 | exact hc1)
    sl_step
    iapply Hk
    isplitl [H0]
    · iexists _; isplitr; · ipureintro; exact o.harg2.read_unread _
      iexact H0
    isplitl [H1]
    · iexists _; isplitr; · ipureintro; exact o.harg3.read_unread _
      iexact H1
    isplitl [H2]
    · iexists _; isplitr; · ipureintro; exact o.harg4.read_unread _
      iexact H2
    isplitl [H3]
    · iexists _; isplitr; · ipureintro; exact o.harg5.read_unread _
      iexact H3
    isplitl [H4]; · iexists _; iexact H4
    isplitl [H5]; · iexists _; iexact H5
    iexists _; iexact HS0

end

section
variable (hc0 : cond1_0 o.i) (hc1 : ¬cond1_1 o.i) (x0 : Vec F S1024x2048 .bf16) (x1 : Vec F S10240x512 .bf16) (x2 : Vec F S512x512 .bf16) (x3 : Vec F S1x512 .f32)

def out1_A_4 : Vec F S1024x512 .f32 :=
  VO1_4.read (Elt F) (VO1_4.writes (Elt F) VO1_4.junk (kernelRun1_A c o hc0 hc1 x0 x1 x2 x3).1)
def out1_A_5 : Vec F S1024x512 .bf16 :=
  VO1_5.read (Elt F) (VO1_5.writes (Elt F) VO1_5.junk (kernelRun1_A c o hc0 hc1 x0 x1 x2 x3).2.1)

theorem scover1_A (y : S1024x512.Idx) :
    ∃ pc ∈ (kernelRun1_A c o hc0 hc1 x0 x1 x2 x3).2.2.1, y ∈ pc.1.set :=
  View.cover_of_tiledL (kernelRun1_A c o hc0 hc1 x0 x1 x2 x3).2.2.1 S1024x512.size (by sl_kernel_rfl) y

def sout1_A : Vec F S1024x512 .f32 :=
  VS1.read (Elt F) (VS1.writes (Elt F) VS1.junk (kernelRun1_A c o hc0 hc1 x0 x1 x2 x3).2.2.1)

end

section
variable (hc0 : ¬cond1_0 o.i) (hc1 : ¬cond1_1 o.i) (x0 : Vec F S1024x2048 .bf16) (x1 : Vec F S10240x512 .bf16) (x2 : Vec F S512x512 .bf16) (x3 : Vec F S1x512 .f32) (xs0 : Vec F S1024x512 .f32)

def out1_B_4 : Vec F S1024x512 .f32 :=
  VO1_4.read (Elt F) (VO1_4.writes (Elt F) VO1_4.junk (kernelRun1_B c o hc0 hc1 x0 x1 x2 x3 xs0).1)
def out1_B_5 : Vec F S1024x512 .bf16 :=
  VO1_5.read (Elt F) (VO1_5.writes (Elt F) VO1_5.junk (kernelRun1_B c o hc0 hc1 x0 x1 x2 x3 xs0).2.1)
theorem scover1_B (y : S1024x512.Idx) :
    ∃ pc ∈ (kernelRun1_B c o hc0 hc1 x0 x1 x2 x3 xs0).2.2.1, y ∈ pc.1.set :=
  View.cover_of_tiledL (kernelRun1_B c o hc0 hc1 x0 x1 x2 x3 xs0).2.2.1 S1024x512.size (by sl_kernel_rfl) y
def sout1_B : Vec F S1024x512 .f32 :=
  VS1.read (Elt F) (VS1.writes (Elt F) VS1.junk (kernelRun1_B c o hc0 hc1 x0 x1 x2 x3 xs0).2.2.1)

end

section
variable (hc0 : ¬cond1_0 o.i) (hc1 : cond1_1 o.i) (x0 : Vec F S1024x2048 .bf16) (x1 : Vec F S10240x512 .bf16) (x2 : Vec F S512x512 .bf16) (x3 : Vec F S1x512 .f32) (xs0 : Vec F S1024x512 .f32)

theorem cover1_C_4 (y : S1024x512.Idx) :
    ∃ pc ∈ (kernelRun1_C c o hc0 hc1 x0 x1 x2 x3 xs0).1, y ∈ pc.1.set :=
  View.cover_of_tiledL (kernelRun1_C c o hc0 hc1 x0 x1 x2 x3 xs0).1 S1024x512.size (by sl_kernel_rfl) y

def out1_C_4 : Vec F S1024x512 .f32 :=
  VO1_4.read (Elt F) (VO1_4.writes (Elt F) VO1_4.junk (kernelRun1_C c o hc0 hc1 x0 x1 x2 x3 xs0).1)

theorem cover1_C_5 (y : S1024x512.Idx) :
    ∃ pc ∈ (kernelRun1_C c o hc0 hc1 x0 x1 x2 x3 xs0).2.1, y ∈ pc.1.set :=
  View.cover_of_tiledL (kernelRun1_C c o hc0 hc1 x0 x1 x2 x3 xs0).2.1 S1024x512.size (by sl_kernel_rfl) y

def out1_C_5 : Vec F S1024x512 .bf16 :=
  VO1_5.read (Elt F) (VO1_5.writes (Elt F) VO1_5.junk (kernelRun1_C c o hc0 hc1 x0 x1 x2 x3 xs0).2.1)

theorem scover1_C (y : S1024x512.Idx) :
    ∃ pc ∈ (kernelRun1_C c o hc0 hc1 x0 x1 x2 x3 xs0).2.2.1, y ∈ pc.1.set :=
  View.cover_of_tiledL (kernelRun1_C c o hc0 hc1 x0 x1 x2 x3 xs0).2.2.1 S1024x512.size (by sl_kernel_rfl) y

def sout1_C : Vec F S1024x512 .f32 :=
  VS1.read (Elt F) (VS1.writes (Elt F) VS1.junk (kernelRun1_C c o hc0 hc1 x0 x1 x2 x3 xs0).2.2.1)

end

end

/-- What the output blocks and the accumulator hold after the `n`-th point, by the point's place in its row of five. -/
def outsAt1 (c : Dev nD) : (n : ℕ) → n < cfg1.N → Vec F S1024x512 .f32 × Vec F S1024x512 .bf16 × Vec F S1024x512 .f32
  | 0, hn => (out1_A_4 c (ops1 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_5 c (ops1 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A c (ops1 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 5 = 0 then
      if h1 : (n + 1) % 5 = 4 then
        False.elim (by omega)
      else
        (out1_A_4 c (ops1 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_5 c (ops1 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A c (ops1 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 5 = 4 then
        (out1_C_4 c (ops1 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2, out1_C_5 c (ops1 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2, sout1_C c (ops1 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2)
      else
        (out1_B_4 c (ops1 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2, out1_B_5 c (ops1 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2, sout1_B c (ops1 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2)

theorem outsAt1_A (c : Dev nD) (t : Fin cfg1.N) (h0 : t.val % 5 = 0) (h1 : ¬t.val % 5 = 4) :
    outsAt1 V c t.val t.isLt = (out1_A_4 c (ops1 t) ((hcond1_0 t).mpr h0) (fun h => h1 ((hcond1_1 t).mp h)) (iblk1 V c 0 t) (iblk1 V c 1 t) (iblk1 V c 2 t) (iblk1 V c 3 t), out1_A_5 c (ops1 t) ((hcond1_0 t).mpr h0) (fun h => h1 ((hcond1_1 t).mp h)) (iblk1 V c 0 t) (iblk1 V c 1 t) (iblk1 V c 2 t) (iblk1 V c 3 t), sout1_A c (ops1 t) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 5 = 0) (h1 : ¬t.val % 5 = 4) :
    outsAt1 V c t.val t.isLt = (out1_B_4 c (ops1 t) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2, out1_B_5 c (ops1 t) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2, sout1_B c (ops1 t) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 5 = 0) (h1 : t.val % 5 = 4) :
    outsAt1 V c t.val t.isLt = (out1_C_4 c (ops1 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2, out1_C_5 c (ops1 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2, sout1_C c (ops1 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2.2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2.2) ∗ others1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2.2) ∗ others1 (F := F) c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- At every point the body takes the accumulator the point before left and leaves this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 50 := lt_of_lt_of_eq t.isLt (show cfg1.N = 50 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 5 = 0
  · by_cases h1 : t.val % 5 = 4
    · exfalso; omega
    ·
      rw [Dat.leavesExact_idle (dat1 V c) 4 t (idleAt1_4 t (fun h => h1 ((hcond1_1 t).mp h))) (noFlush1_4 t (fun h => h1 ((hcond1_1 t).mp h)))]
      rw [Dat.leavesExact_idle (dat1 V c) 5 t (idleAt1_5 t (fun h => h1 ((hcond1_1 t).mp h))) (noFlush1_5 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HS0, Hoth⟩, Hg⟩, Ho, ⟨%d0, H0⟩, ⟨%d1, H1⟩, ⟨%d2, H2⟩, ⟨%d3, H3⟩, ⟨%d4, H4⟩, ⟨%d5, H5⟩⟩
        iapply ((kernelRun1_A c (ops1 t) ((hcond1_0 t).mpr h0) (fun h => h1 ((hcond1_1 t).mp h)) (iblk1 V c 0 t) (iblk1 V c 1 t) (iblk1 V c 2 t) (iblk1 V c 3 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A c _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩⟩
        iapply ((kernelRun1_A c (ops1 t) ((hcond1_0 t).mpr h0) (fun h => h1 ((hcond1_1 t).mp h)) (iblk1 V c 0 t) (iblk1 V c 1 t) (iblk1 V c 2 t) (iblk1 V c 3 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A c _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
  · by_cases h1 : t.val % 5 = 4
    ·
      rw [show (dat1 V c).leavesExact 4 t = owns (c : Thread nD τ) (ms1_4 t) fullShare ((dat1 V c).after 4 t) from by
        unfold Dat.leavesExact; rw [liveAt1_4 t ((hcond1_1 t).mpr h1)], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_4 out1_C_5 sout1_C; (try dsimp only)
      by_cases hz : t.val = 0
      · exfalso; omega
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩⟩
        iapply ((kernelRun1_C c (ops1 t) (fun h => h0 ((hcond1_0 t).mp h)) ((hcond1_1 t).mpr h1) (iblk1 V c 0 t) (iblk1 V c 1 t) (iblk1 V c 2 t) (iblk1 V c 3 t) _).2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        iintro ⟨H0, H1, H2, H3, ⟨%e4, H4⟩, ⟨%e5, H5⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_C c _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_C_4 c _ _ _ _ _ _ _ _)
        unfold owns; iexists _; isplitr
        swap; · iexact H5
        ipureintro; exact View.read_writes_of_cover _ _ _ _ _ (cover1_C_5 c _ _ _ _ _ _ _ _)
    ·
      rw [Dat.leavesExact_idle (dat1 V c) 4 t (idleAt1_4 t (fun h => h1 ((hcond1_1 t).mp h))) (noFlush1_4 t (fun h => h1 ((hcond1_1 t).mp h)))]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B; (try dsimp only)
      by_cases hz : t.val = 0
      · exfalso; omega
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩⟩
        iapply ((kernelRun1_B c (ops1 t) (fun h => h0 ((hcond1_0 t).mp h)) (fun h => h1 ((hcond1_1 t).mp h)) (iblk1 V c 0 t) (iblk1 V c 1 t) (iblk1 V c 2 t) (iblk1 V c 3 t) _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_B c _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 50 := N_1; omega), PhiA1_eq]
  iintro ⟨⟨HS0, Hoth⟩, Hg⟩
  isplitl [HS0 Hoth]
  · isplitl [HS0]
    · iexists _; iexact HS0
    iexact Hoth
  iexact Hg

end Cert.KernelIdeal.Fr

end
-- ==== Proof.R2Frame.lean ====
import proofs.«413367_j60610578482006_3_alg».proof.Proof.Gen.KernelIdeal.Launch
import proofs.«413367_j60610578482006_3_alg».proof.Proof.Gen.KernelIdeal.Skeleton
import proofs.«413367_j60610578482006_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 5 = 0 :=
  (by decide +kernel : ∀ t : Fin grid2.N, cond2_0 (grid2.coords t) ↔ t.val % 5 = 0)

abbrev cond2_1 (i : grid2.Coords) : Prop := k2_cond2 i = 1#1
theorem hcond2_1 : ∀ t : Fin cfg2.N, cond2_1 (grid2.coords t) ↔ t.val % 5 = 4 :=
  (by decide +kernel : ∀ t : Fin grid2.N, cond2_1 (grid2.coords t) ↔ t.val % 5 = 4)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel

theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel

theorem liveAt2_6 : ∀ t : Fin cfg2.N, cond2_1 (grid2.coords t) → cfg2.idle 6 (grid2.coords t) = false := by decide +kernel

theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7 : ∀ t : Fin cfg2.N, cond2_1 (grid2.coords t) → cfg2.idle 7 (grid2.coords t) = false := by decide +kernel

abbrev VO2_6 : View sig .tc .vmem S1024x512 .f32 := (Memref.whole cc2_stg6_0 : Memref sig .tc .vmem S1024x512 .f32).view
abbrev VO2_7 : View sig .tc .vmem S1024x512 .f32 := (Memref.whole cc2_stg7_0 : Memref sig .tc .vmem S1024x512 .f32).view
abbrev ms2_0 (t : Fin cfg2.N) : Memref sig .tc .vmem S1024x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S10240x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x512 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x512 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x512 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024x512 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1024x512 .f32 := win2_7.stage (cfg2.slots t 7)
abbrev hs2_7 (t : Fin cfg2.N) : (ms2_7 t).IsWhole := hstage2_7 ((cfg2.slots t 7).cast nbuf2_7)

abbrev scM2 : Memref sig .tc .vmem S1024x512 .f32 := Memref.whole cc2_scratch0
abbrev VS2 : View sig .tc .vmem S1024x512 .f32 := scM2.view

def others2 (c : Dev nD) : sProp 𝕄 :=
  Pipeline.scopedRestBut (Ix := Unit) (Name := ℕ) (U := UR sig nD τ) (Lvl := ℕ) (Val := Elt F) spec2 c [cc2_scratch0]

theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ others2 (F := F) c) :=
  Pipeline.scopedRest_split_of_list spec2 c [cc2_scratch0] (by decide) (by decide)

theorem PhiA2_eq (c : Dev nD) :
    (Pipeline.ΦA spec2 c : sProp 𝕄)
      = iprop(iprop((∃ d, owns (c : Thread nD τ) scM2 fullShare d) ∗ others2 (F := F) c) ∗ (∃ r, prngReg c r)) := by
  unfold Pipeline.ΦA; rw [scopedRest2_split]; simp only [scM2, owns_whole]; try rfl

/-- The body's operands: the grid point's coordinates and the whole buffers it is called with. -/
structure Ops2 where
  i : grid2.Coords
  arg2 : Memref sig .tc .vmem S1024x2048 .bf16
  harg2 : arg2.IsWhole
  arg3 : Memref sig .tc .vmem S10240x512 .bf16
  harg3 : arg3.IsWhole
  arg4 : Memref sig .tc .vmem S512x512 .bf16
  harg4 : arg4.IsWhole
  arg5 : Memref sig .tc .vmem S1x512 .f32
  harg5 : arg5.IsWhole
  arg6 : Memref sig .tc .vmem S512x512 .bf16
  harg6 : arg6.IsWhole
  arg7 : Memref sig .tc .vmem S1x512 .f32
  harg7 : arg7.IsWhole
  arg8 : Memref sig .tc .vmem S1024x512 .f32
  harg8 : arg8.IsWhole
  arg9 : Memref sig .tc .vmem S1024x512 .f32
  harg9 : arg9.IsWhole
  arg10 : Memref sig .tc .vmem S1024x512 .f32
  harg10 : arg10.IsWhole

/-- The operands at point `t`. -/
abbrev ops2 (t : Fin cfg2.N) : Ops2 :=
  ⟨grid2.coords t, ms2_0 t, hs2_0 t, ms2_1 t, hs2_1 t, ms2_2 t, hs2_2 t, ms2_3 t, hs2_3 t, ms2_4 t, hs2_4 t, ms2_5 t, hs2_5 t, ms2_6 t, hs2_6 t, ms2_7 t, hs2_7 t, scM2, Memref.isWhole_whole _⟩

section
variable (c : Dev nD) (o : Ops2)

section
variable (hc0 : cond2_0 o.i) (hc1 : ¬cond2_1 o.i) (x0 : Vec F S1024x2048 .bf16) (x1 : Vec F S10240x512 .bf16) (x2 : Vec F S512x512 .bf16) (x3 : Vec F S1x512 .f32) (x4 : Vec F S512x512 .bf16) (x5 : Vec F S1x512 .f32)

set_option maxHeartbeats 4000000 in
noncomputable def kernelRun2_A :
    Σ' (L6 : List (View.Piece (Elt F) S1024x512 .f32)), Σ' (L7 : List (View.Piece (Elt F) S1024x512 .f32)), { LS0 : List (View.Piece (Elt F) S1024x512 .f32) //
      ∀ (xi6 : Vec F S1024x512 .f32) (xi7 : Vec F S1024x512 .f32) (E : Set ℕ) (K : PUnit → sProp 𝕄),
        iprop(owns (c : Thread nD τ) o.arg2 fullShare x0 ∗ owns (c : Thread nD τ) o.arg3 fullShare x1 ∗ owns (c : Thread nD τ) o.arg4 fullShare x2 ∗ owns (c : Thread nD τ) o.arg5 fullShare x3 ∗ owns (c : Thread nD τ) o.arg6 fullShare x4 ∗ owns (c : Thread nD τ) o.arg7 fullShare x5 ∗ owns (c : Thread nD τ) o.arg8 fullShare xi6 ∗ owns (c : Thread nD τ) o.arg9 fullShare xi7 ∗ (∃ d, owns (c : Thread nD τ) o.arg10 fullShare d)
            ∗ (iprop(owns (c : Thread nD τ) o.arg2 fullShare x0 ∗ owns (c : Thread nD τ) o.arg3 fullShare x1 ∗ owns (c : Thread nD τ) o.arg4 fullShare x2 ∗ owns (c : Thread nD τ) o.arg5 fullShare x3 ∗ owns (c : Thread nD τ) o.arg6 fullShare x4 ∗ owns (c : Thread nD τ) o.arg7 fullShare x5 ∗ owns (c : Thread nD τ) o.arg8 fullShare xi6 ∗ owns (c : Thread nD τ) o.arg9 fullShare xi7 ∗ (∃ f, o.arg10.view.loc (c : Thread nD τ) ↦[o.arg10.view.set]{fullShare} o.arg10.view.writes (Elt F) f LS0)) -∗ K ⟨⟩))
          ⊢ wp frame (wpE (defs₀ (F := F)) Variants.none c none) E (cc2_kernel o.i o.arg2 o.harg2 o.arg3 o.harg3 o.arg4 o.harg4 o.arg5 o.harg5 o.arg6 o.harg6 o.arg7 o.harg7 o.arg8 o.harg8 o.arg9 o.harg9 o.arg10 o.harg10) K } := by
  refine ⟨[], [], ?_, fun xi6 xi7 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := o.harg2.eq_unread hf0; obtain rfl := o.harg3.eq_unread hf1; obtain rfl := o.harg4.eq_unread hf2
    obtain rfl := o.harg5.eq_unread hf3; obtain rfl := o.harg6.eq_unread hf4; obtain rfl := o.harg7.eq_unread hf5
    obtain rfl := o.harg8.eq_unread hf6; obtain rfl := o.harg9.eq_unread hf7
    sl_exec (disch := first | exact hc0 | exact hc1)
    sl_step
    iapply Hk
    isplitl [H0]
    · iexists _; isplitr; · ipureintro; exact o.harg2.read_unread _
      iexact H0
    isplitl [H1]
    · iexists _; isplitr; · ipureintro; exact o.harg3.read_unread _
      iexact H1
    isplitl [H2]
    · iexists _; isplitr; · ipureintro; exact o.harg4.read_unread _
      iexact H2
    isplitl [H3]
    · iexists _; isplitr; · ipureintro; exact o.harg5.read_unread _
      iexact H3
    isplitl [H4]
    · iexists _; isplitr; · ipureintro; exact o.harg6.read_unread _
      iexact H4
    isplitl [H5]
    · iexists _; isplitr; · ipureintro; exact o.harg7.read_unread _
      iexact H5
    isplitl [H6]
    · iexists _; isplitr; · ipureintro; exact o.harg8.read_unread _
      iexact H6
    isplitl [H7]
    · iexists _; isplitr; · ipureintro; exact o.harg9.read_unread _
      iexact H7
    iexists _; iexact HS0

end

section
variable (hc0 : ¬cond2_0 o.i) (hc1 : ¬cond2_1 o.i) (x0 : Vec F S1024x2048 .bf16) (x1 : Vec F S10240x512 .bf16) (x2 : Vec F S512x512 .bf16) (x3 : Vec F S1x512 .f32) (x4 : Vec F S512x512 .bf16) (x5 : Vec F S1x512 .f32) (xs0 : Vec F S1024x512 .f32)

set_option maxHeartbeats 4000000 in
noncomputable def kernelRun2_B :
    Σ' (L6 : List (View.Piece (Elt F) S1024x512 .f32)), Σ' (L7 : List (View.Piece (Elt F) S1024x512 .f32)), { LS0 : List (View.Piece (Elt F) S1024x512 .f32) //
      ∀ (xi6 : Vec F S1024x512 .f32) (xi7 : Vec F S1024x512 .f32) (E : Set ℕ) (K : PUnit → sProp 𝕄),
        iprop(owns (c : Thread nD τ) o.arg2 fullShare x0 ∗ owns (c : Thread nD τ) o.arg3 fullShare x1 ∗ owns (c : Thread nD τ) o.arg4 fullShare x2 ∗ owns (c : Thread nD τ) o.arg5 fullShare x3 ∗ owns (c : Thread nD τ) o.arg6 fullShare x4 ∗ owns (c : Thread nD τ) o.arg7 fullShare x5 ∗ owns (c : Thread nD τ) o.arg8 fullShare xi6 ∗ owns (c : Thread nD τ) o.arg9 fullShare xi7 ∗ owns (c : Thread nD τ) o.arg10 fullShare xs0
            ∗ (iprop(owns (c : Thread nD τ) o.arg2 fullShare x0 ∗ owns (c : Thread nD τ) o.arg3 fullShare x1 ∗ owns (c : Thread nD τ) o.arg4 fullShare x2 ∗ owns (c : Thread nD τ) o.arg5 fullShare x3 ∗ owns (c : Thread nD τ) o.arg6 fullShare x4 ∗ owns (c : Thread nD τ) o.arg7 fullShare x5 ∗ owns (c : Thread nD τ) o.arg8 fullShare xi6 ∗ owns (c : Thread nD τ) o.arg9 fullShare xi7 ∗ (∃ f, o.arg10.view.loc (c : Thread nD τ) ↦[o.arg10.view.set]{fullShare} o.arg10.view.writes (Elt F) f LS0)) -∗ K ⟨⟩))
          ⊢ wp frame (wpE (defs₀ (F := F)) Variants.none c none) E (cc2_kernel o.i o.arg2 o.harg2 o.arg3 o.harg3 o.arg4 o.harg4 o.arg5 o.harg5 o.arg6 o.harg6 o.arg7 o.harg7 o.arg8 o.harg8 o.arg9 o.harg9 o.arg10 o.harg10) K } := by
  refine ⟨[], [], ?_, fun xi6 xi7 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := o.harg2.eq_unread hf0; obtain rfl := o.harg3.eq_unread hf1; obtain rfl := o.harg4.eq_unread hf2
    obtain rfl := o.harg5.eq_unread hf3; obtain rfl := o.harg6.eq_unread hf4; obtain rfl := o.harg7.eq_unread hf5
    obtain rfl := o.harg8.eq_unread hf6; obtain rfl := o.harg9.eq_unread hf7; obtain rfl := o.harg10.eq_unread hfs0
    sl_exec (disch := first | exact hc0 | exact hc1)
    sl_step
    iapply Hk
    isplitl [H0]
    · iexists _; isplitr; · ipureintro; exact o.harg2.read_unread _
      iexact H0
    isplitl [H1]
    · iexists _; isplitr; · ipureintro; exact o.harg3.read_unread _
      iexact H1
    isplitl [H2]
    · iexists _; isplitr; · ipureintro; exact o.harg4.read_unread _
      iexact H2
    isplitl [H3]
    · iexists _; isplitr; · ipureintro; exact o.harg5.read_unread _
      iexact H3
    isplitl [H4]
    · iexists _; isplitr; · ipureintro; exact o.harg6.read_unread _
      iexact H4
    isplitl [H5]
    · iexists _; isplitr; · ipureintro; exact o.harg7.read_unread _
      iexact H5
    isplitl [H6]
    · iexists _; isplitr; · ipureintro; exact o.harg8.read_unread _
      iexact H6
    isplitl [H7]
    · iexists _; isplitr; · ipureintro; exact o.harg9.read_unread _
      iexact H7
    iexists _; iexact HS0

end

section
variable (hc0 : ¬cond2_0 o.i) (hc1 : cond2_1 o.i) (x0 : Vec F S1024x2048 .bf16) (x1 : Vec F S10240x512 .bf16) (x2 : Vec F S512x512 .bf16) (x3 : Vec F S1x512 .f32) (x4 : Vec F S512x512 .bf16) (x5 : Vec F S1x512 .f32) (xs0 : Vec F S1024x512 .f32)

set_option maxHeartbeats 4000000 in
noncomputable def kernelRun2_C :
    Σ' (L6 : List (View.Piece (Elt F) S1024x512 .f32)), Σ' (L7 : List (View.Piece (Elt F) S1024x512 .f32)), { LS0 : List (View.Piece (Elt F) S1024x512 .f32) //
      ∀ (E : Set ℕ) (K : PUnit → sProp 𝕄),
        iprop(owns (c : Thread nD τ) o.arg2 fullShare x0 ∗ owns (c : Thread nD τ) o.arg3 fullShare x1 ∗ owns (c : Thread nD τ) o.arg4 fullShare x2 ∗ owns (c : Thread nD τ) o.arg5 fullShare x3 ∗ owns (c : Thread nD τ) o.arg6 fullShare x4 ∗ owns (c : Thread nD τ) o.arg7 fullShare x5 ∗ (∃ d, owns (c : Thread nD τ) o.arg8 fullShare d) ∗ (∃ d, owns (c : Thread nD τ) o.arg9 fullShare d) ∗ owns (c : Thread nD τ) o.arg10 fullShare xs0
            ∗ (iprop(owns (c : Thread nD τ) o.arg2 fullShare x0 ∗ owns (c : Thread nD τ) o.arg3 fullShare x1 ∗ owns (c : Thread nD τ) o.arg4 fullShare x2 ∗ owns (c : Thread nD τ) o.arg5 fullShare x3 ∗ owns (c : Thread nD τ) o.arg6 fullShare x4 ∗ owns (c : Thread nD τ) o.arg7 fullShare x5 ∗ (∃ f, o.arg8.view.loc (c : Thread nD τ) ↦[o.arg8.view.set]{fullShare} o.arg8.view.writes (Elt F) f L6) ∗ (∃ f, o.arg9.view.loc (c : Thread nD τ) ↦[o.arg9.view.set]{fullShare} o.arg9.view.writes (Elt F) f L7) ∗ (∃ f, o.arg10.view.loc (c : Thread nD τ) ↦[o.arg10.view.set]{fullShare} o.arg10.view.writes (Elt F) f LS0)) -∗ K ⟨⟩))
          ⊢ wp frame (wpE (defs₀ (F := F)) Variants.none c none) E (cc2_kernel o.i o.arg2 o.harg2 o.arg3 o.harg3 o.arg4 o.harg4 o.arg5 o.harg5 o.arg6 o.harg6 o.arg7 o.harg7 o.arg8 o.harg8 o.arg9 o.harg9 o.arg10 o.harg10) K } := by
  refine ⟨?_, ?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := o.harg2.eq_unread hf0; obtain rfl := o.harg3.eq_unread hf1; obtain rfl := o.harg4.eq_unread hf2
    obtain rfl := o.harg5.eq_unread hf3; obtain rfl := o.harg6.eq_unread hf4; obtain rfl := o.harg7.eq_unread hf5
    obtain rfl := o.harg10.eq_unread hfs0
    sl_exec (disch := first | exact hc0 | exact hc1)
    sl_step
    iapply Hk
    isplitl [H0]
    · iexists _; isplitr; · ipureintro; exact o.harg2.read_unread _
      iexact H0
    isplitl [H1]
    · iexists _; isplitr; · ipureintro; exact o.harg3.read_unread _
      iexact H1
    isplitl [H2]
    · iexists _; isplitr; · ipureintro; exact o.harg4.read_unread _
      iexact H2
    isplitl [H3]
    · iexists _; isplitr; · ipureintro; exact o.harg5.read_unread _
      iexact H3
    isplitl [H4]
    · iexists _; isplitr; · ipureintro; exact o.harg6.read_unread _
      iexact H4
    isplitl [H5]
    · iexists _; isplitr; · ipureintro; exact o.harg7.read_unread _
      iexact H5
    isplitl [H6]; · iexists _; iexact H6
    isplitl [H7]; · iexists _; iexact H7
    iexists _; iexact HS0

end

section
variable (hc0 : cond2_0 o.i) (hc1 : ¬cond2_1 o.i) (x0 : Vec F S1024x2048 .bf16) (x1 : Vec F S10240x512 .bf16) (x2 : Vec F S512x512 .bf16) (x3 : Vec F S1x512 .f32) (x4 : Vec F S512x512 .bf16) (x5 : Vec F S1x512 .f32)

def out2_A_6 : Vec F S1024x512 .f32 :=
  VO2_6.read (Elt F) (VO2_6.writes (Elt F) VO2_6.junk (kernelRun2_A c o hc0 hc1 x0 x1 x2 x3 x4 x5).1)

def out2_A_7 : Vec F S1024x512 .f32 :=
  VO2_7.read (Elt F) (VO2_7.writes (Elt F) VO2_7.junk (kernelRun2_A c o hc0 hc1 x0 x1 x2 x3 x4 x5).2.1)

theorem scover2_A (y : S1024x512.Idx) :
    ∃ pc ∈ (kernelRun2_A c o hc0 hc1 x0 x1 x2 x3 x4 x5).2.2.1, y ∈ pc.1.set :=
  View.cover_of_tiledL (kernelRun2_A c o hc0 hc1 x0 x1 x2 x3 x4 x5).2.2.1 S1024x512.size (by sl_kernel_rfl) y

def sout2_A : Vec F S1024x512 .f32 :=
  VS2.read (Elt F) (VS2.writes (Elt F) VS2.junk (kernelRun2_A c o hc0 hc1 x0 x1 x2 x3 x4 x5).2.2.1)

end

section
variable (hc0 : ¬cond2_0 o.i) (hc1 : ¬cond2_1 o.i) (x0 : Vec F S1024x2048 .bf16) (x1 : Vec F S10240x512 .bf16) (x2 : Vec F S512x512 .bf16) (x3 : Vec F S1x512 .f32) (x4 : Vec F S512x512 .bf16) (x5 : Vec F S1x512 .f32) (xs0 : Vec F S1024x512 .f32)

def out2_B_6 : Vec F S1024x512 .f32 :=
  VO2_6.read (Elt F) (VO2_6.writes (Elt F) VO2_6.junk (kernelRun2_B c o hc0 hc1 x0 x1 x2 x3 x4 x5 xs0).1)

def out2_B_7 : Vec F S1024x512 .f32 :=
  VO2_7.read (Elt F) (VO2_7.writes (Elt F) VO2_7.junk (kernelRun2_B c o hc0 hc1 x0 x1 x2 x3 x4 x5 xs0).2.1)
theorem scover2_B (y : S1024x512.Idx) :
    ∃ pc ∈ (kernelRun2_B c o hc0 hc1 x0 x1 x2 x3 x4 x5 xs0).2.2.1, y ∈ pc.1.set :=
  View.cover_of_tiledL (kernelRun2_B c o hc0 hc1 x0 x1 x2 x3 x4 x5 xs0).2.2.1 S1024x512.size (by sl_kernel_rfl) y
def sout2_B : Vec F S1024x512 .f32 :=
  VS2.read (Elt F) (VS2.writes (Elt F) VS2.junk (kernelRun2_B c o hc0 hc1 x0 x1 x2 x3 x4 x5 xs0).2.2.1)

end

section
variable (hc0 : ¬cond2_0 o.i) (hc1 : cond2_1 o.i) (x0 : Vec F S1024x2048 .bf16) (x1 : Vec F S10240x512 .bf16) (x2 : Vec F S512x512 .bf16) (x3 : Vec F S1x512 .f32) (x4 : Vec F S512x512 .bf16) (x5 : Vec F S1x512 .f32) (xs0 : Vec F S1024x512 .f32)

theorem cover2_C_6 (y : S1024x512.Idx) :
    ∃ pc ∈ (kernelRun2_C c o hc0 hc1 x0 x1 x2 x3 x4 x5 xs0).1, y ∈ pc.1.set :=
  View.cover_of_tiledL (kernelRun2_C c o hc0 hc1 x0 x1 x2 x3 x4 x5 xs0).1 S1024x512.size (by sl_kernel_rfl) y

def out2_C_6 : Vec F S1024x512 .f32 :=
  VO2_6.read (Elt F) (VO2_6.writes (Elt F) VO2_6.junk (kernelRun2_C c o hc0 hc1 x0 x1 x2 x3 x4 x5 xs0).1)

theorem cover2_C_7 (y : S1024x512.Idx) :
    ∃ pc ∈ (kernelRun2_C c o hc0 hc1 x0 x1 x2 x3 x4 x5 xs0).2.1, y ∈ pc.1.set :=
  View.cover_of_tiledL (kernelRun2_C c o hc0 hc1 x0 x1 x2 x3 x4 x5 xs0).2.1 S1024x512.size (by sl_kernel_rfl) y

def out2_C_7 : Vec F S1024x512 .f32 :=
  VO2_7.read (Elt F) (VO2_7.writes (Elt F) VO2_7.junk (kernelRun2_C c o hc0 hc1 x0 x1 x2 x3 x4 x5 xs0).2.1)

theorem scover2_C (y : S1024x512.Idx) :
    ∃ pc ∈ (kernelRun2_C c o hc0 hc1 x0 x1 x2 x3 x4 x5 xs0).2.2.1, y ∈ pc.1.set :=
  View.cover_of_tiledL (kernelRun2_C c o hc0 hc1 x0 x1 x2 x3 x4 x5 xs0).2.2.1 S1024x512.size (by sl_kernel_rfl) y

def sout2_C : Vec F S1024x512 .f32 :=
  VS2.read (Elt F) (VS2.writes (Elt F) VS2.junk (kernelRun2_C c o hc0 hc1 x0 x1 x2 x3 x4 x5 xs0).2.2.1)

end

end

/-- What the output blocks and the accumulator hold after the `n`-th point, by the point's place in its row of five. -/
def outsAt2 (c : Dev nD) : (n : ℕ) → n < cfg2.N → Vec F S1024x512 .f32 × Vec F S1024x512 .f32 × Vec F S1024x512 .f32
  | 0, hn => (out2_A_6 c (ops2 ⟨0, hn⟩) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
      out2_A_7 c (ops2 ⟨0, hn⟩) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
      sout2_A c (ops2 ⟨0, hn⟩) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 5 = 0 then
      if h1 : (n + 1) % 5 = 4 then
        False.elim (by omega)
      else
        (out2_A_6 c (ops2 ⟨n + 1, hn⟩) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩),
          out2_A_7 c (ops2 ⟨n + 1, hn⟩) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩),
          sout2_A c (ops2 ⟨n + 1, hn⟩) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      if h1 : (n + 1) % 5 = 4 then
        (out2_C_6 c (ops2 ⟨n + 1, hn⟩) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2,
          out2_C_7 c (ops2 ⟨n + 1, hn⟩) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2,
          sout2_C c (ops2 ⟨n + 1, hn⟩) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2)
      else
        (out2_B_6 c (ops2 ⟨n + 1, hn⟩) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2,
          out2_B_7 c (ops2 ⟨n + 1, hn⟩) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2,
          sout2_B c (ops2 ⟨n + 1, hn⟩) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2)

theorem outsAt2_A (c : Dev nD) (t : Fin cfg2.N) (h0 : t.val % 5 = 0) (h1 : ¬t.val % 5 = 4) :
    outsAt2 V c t.val t.isLt = (out2_A_6 c (ops2 t) ((hcond2_0 t).mpr h0) (fun h => h1 ((hcond2_1 t).mp h)) (iblk2 V c 0 t) (iblk2 V c 1 t) (iblk2 V c 2 t) (iblk2 V c 3 t) (iblk2 V c 4 t) (iblk2 V c 5 t),
      out2_A_7 c (ops2 t) ((hcond2_0 t).mpr h0) (fun h => h1 ((hcond2_1 t).mp h)) (iblk2 V c 0 t) (iblk2 V c 1 t) (iblk2 V c 2 t) (iblk2 V c 3 t) (iblk2 V c 4 t) (iblk2 V c 5 t),
      sout2_A c (ops2 t) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans ((dif_neg h1).trans rfl)

theorem outsAt2_B (c : Dev nD) (t : Fin cfg2.N) (h0 : ¬t.val % 5 = 0) (h1 : ¬t.val % 5 = 4) :
    outsAt2 V c t.val t.isLt = (out2_B_6 c (ops2 t) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2,
      out2_B_7 c (ops2 t) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2,
      sout2_B c (ops2 t) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 5 = 0) (h1 : t.val % 5 = 4) :
    outsAt2 V c t.val t.isLt = (out2_C_6 c (ops2 t) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2,
      out2_C_7 c (ops2 t) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2,
      sout2_C c (ops2 t) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2.2) ∗ others2 (F := F) c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2.2) ∗ others2 (F := F) c) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2.2) ∗ others2 (F := F) c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 16000000 in
/-- At every point the body takes the accumulator the point before left and leaves this point's. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 50 := lt_of_lt_of_eq t.isLt (show cfg2.N = 50 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h0 : t.val % 5 = 0
  · by_cases h1 : t.val % 5 = 4
    · exfalso; omega
    ·
      rw [Dat.leavesExact_idle (dat2 V c) 6 t (idleAt2_6 t (fun h => h1 ((hcond2_1 t).mp h))) (noFlush2_6 t (fun h => h1 ((hcond2_1 t).mp h)))]
      rw [Dat.leavesExact_idle (dat2 V c) 7 t (idleAt2_7 t (fun h => h1 ((hcond2_1 t).mp h))) (noFlush2_7 t (fun h => h1 ((hcond2_1 t).mp h)))]
      rw [outsAt2_A V c t h0 h1]
      unfold sout2_A; (try dsimp only)
      by_cases hz : t.val = 0
      · rw [PhiS2_castSucc V c t, PhiS2_zero V c _ _ hz, PhiA2_eq]
        iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_A c (ops2 t) ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover2_A c _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
      · rw [PhiS2_castSucc V c t, PhiS2_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_A c (ops2 t) ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        iintro ⟨H0, H1, H2, H3, H4, H5, H6, H7, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover2_A c _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
  · by_cases h1 : t.val % 5 = 4
    ·
      rw [show (dat2 V c).leavesExact 6 t = owns (c : Thread nD τ) (ms2_6 t) fullShare ((dat2 V c).after 6 t) from by
        unfold Dat.leavesExact; rw [liveAt2_6 t ((hcond2_1 t).mpr h1)], after2_6]
      rw [show (dat2 V c).leavesExact 7 t = owns (c : Thread nD τ) (ms2_7 t) fullShare ((dat2 V c).after 7 t) from by
        unfold Dat.leavesExact; rw [liveAt2_7 t ((hcond2_1 t).mpr h1)], after2_7]
      rw [outsAt2_C V c t h0 h1]
      unfold out2_C_6 out2_C_7 sout2_C; (try dsimp only)
      by_cases hz : t.val = 0
      · exfalso; omega
      · rw [PhiS2_castSucc V c t, PhiS2_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_C c (ops2 t) (fun h => h0 ((hcond2_0 t).mp h)) ((hcond2_1 t).mpr h1) (iblk2 V c 0 t) (iblk2 V c 1 t) (iblk2 V c 2 t) (iblk2 V c 3 t) (iblk2 V c 4 t) (iblk2 V c 5 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        iintro ⟨H0, H1, H2, H3, H4, H5, ⟨%e6, H6⟩, ⟨%e7, H7⟩, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover2_C c _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover2_C_6 c _ _ _ _ _ _ _ _ _ _)
        unfold owns; iexists _; isplitr
        swap; · iexact H7
        ipureintro; exact View.read_writes_of_cover _ _ _ _ _ (cover2_C_7 c _ _ _ _ _ _ _ _ _ _)
    ·
      rw [Dat.leavesExact_idle (dat2 V c) 6 t (idleAt2_6 t (fun h => h1 ((hcond2_1 t).mp h))) (noFlush2_6 t (fun h => h1 ((hcond2_1 t).mp h)))]
      rw [Dat.leavesExact_idle (dat2 V c) 7 t (idleAt2_7 t (fun h => h1 ((hcond2_1 t).mp h))) (noFlush2_7 t (fun h => h1 ((hcond2_1 t).mp h)))]
      rw [outsAt2_B V c t h0 h1]
      unfold sout2_B; (try dsimp only)
      by_cases hz : t.val = 0
      · exfalso; omega
      · rw [PhiS2_castSucc V c t, PhiS2_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_B c (ops2 t) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _).2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover2_B c _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 50 := N_2; omega), PhiA2_eq]
  iintro ⟨⟨HS0, Hoth⟩, Hg⟩
  isplitl [HS0 Hoth]
  · isplitl [HS0]
    · iexists _; iexact HS0
    iexact Hoth
  iexact Hg

end Cert.KernelIdeal.Fr

end
-- ==== Proof.KRun.lean ====
import proofs.«413367_j60610578482006_3_alg».proof.Proof.R0Frame
import proofs.«413367_j60610578482006_3_alg».proof.Proof.R1Frame
import proofs.«413367_j60610578482006_3_alg».proof.Proof.R2Frame
import proofs.«413367_j60610578482006_3_alg».proof.Proof.Gen.KernelIdeal.Regions

/-!
# The kernel program's run: five stretches of host operations, three kernel regions, three closing slices

The contents of a core's buffers are followed from the launch through @main: each host stretch applies its
operations; each region leaves its arrays at what its write-backs wrote and every other buffer as it found it.
Every weakly fair execution terminates with every unscoped buffer at the last of these contents — which gives the
frame (no item writes an argument) and names what the three results hold.
-/

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Region 0 is entered from the contents the five host stretches leave. -/
abbrev E0 : (c : Dev nD) → (b : Ref sig .tc) → Buf (Elt F) ((c : Thread nD τ).loc b) := fun c b => V5 m c b

/-- At region 0's exit: its arrays at what its write-backs leave, every other buffer as entered. -/
def W6 (c : Dev nD) : Valuation τ sig (Elt F) :=
  Pipeline.withArrays spec0 c (V5 m c) fun w => (dat0 (E0 m) c).arrAt w cfg0.N
theorem W6_arr (c : Dev nD) (w : Fin cfg0.W) :
    W6 m c (Proc.devRef .tc (Pipeline.arrRef spec0 w)) = (dat0 (E0 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = V5 m c (Proc.devRef .tc b) := by
  unfold W6; exact Pipeline.withArrays_of_ne spec0 c _ _ b hb
/-- The same read at the TensorCore's references: what the next item is entered from. -/
abbrev E1 : (c : Dev nD) → (b : Ref sig .tc) → Buf (Elt F) ((c : Thread nD τ).loc b) := fun c b => W6 m c b
theorem hF0 (c : Dev nD) (w : Fin cfg0.W) : (dat0 (E0 m) c).arrAt w cfg0.N = E1 m c (Pipeline.arrRef spec0 w) :=
  (W6_arr m c w).symm
theorem hrest0 (c : Dev nD) : ∀ b, b ∉ Finset.univ.image (Pipeline.arrRef spec0) → E1 m c b = E0 m c b :=
  fun b hb => W6_of_ne m c b fun w e => hb (Finset.mem_image.mpr ⟨w, Finset.mem_univ _, e⟩)

/-- At region 1's exit: its arrays at what its write-backs leave, every other buffer as entered. -/
def W7 (c : Dev nD) : Valuation τ sig (Elt F) :=
  Pipeline.withArrays spec1 c (W6 m c) fun w => (dat1 (E1 m) c).arrAt w cfg1.N
theorem W7_arr (c : Dev nD) (w : Fin cfg1.W) :
    W7 m c (Proc.devRef .tc (Pipeline.arrRef spec1 w)) = (dat1 (E1 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
/-- The same read at the TensorCore's references: what the next item is entered from. -/
abbrev E2 : (c : Dev nD) → (b : Ref sig .tc) → Buf (Elt F) ((c : Thread nD τ).loc b) := fun c b => W7 m c b
theorem hF1 (c : Dev nD) (w : Fin cfg1.W) : (dat1 (E1 m) c).arrAt w cfg1.N = E2 m c (Pipeline.arrRef spec1 w) :=
  (W7_arr m c w).symm
theorem hrest1 (c : Dev nD) : ∀ b, b ∉ Finset.univ.image (Pipeline.arrRef spec1) → E2 m c b = E1 m c b :=
  fun b hb => W7_of_ne m c b fun w e => hb (Finset.mem_image.mpr ⟨w, Finset.mem_univ _, e⟩)

/-- At region 2's exit: its arrays at what its write-backs leave, every other buffer as entered. -/
def W8 (c : Dev nD) : Valuation τ sig (Elt F) :=
  Pipeline.withArrays spec2 c (W7 m c) fun w => (dat2 (E2 m) c).arrAt w cfg2.N
theorem W8_arr (c : Dev nD) (w : Fin cfg2.W) :
    W8 m c (Proc.devRef .tc (Pipeline.arrRef spec2 w)) = (dat2 (E2 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- The same read at the TensorCore's references: what the next item is entered from. -/
abbrev E3 : (c : Dev nD) → (b : Ref sig .tc) → Buf (Elt F) ((c : Thread nD τ).loc b) := fun c b => W8 m c b
theorem hF2 (c : Dev nD) (w : Fin cfg2.W) : (dat2 (E2 m) c).arrAt w cfg2.N = E3 m c (Pipeline.arrRef spec2 w) :=
  (W8_arr m c w).symm
theorem hrest2 (c : Dev nD) : ∀ b, b ∉ Finset.univ.image (Pipeline.arrRef spec2) → E3 m c b = E2 m c b :=
  fun b hb => W8_of_ne m c b fun w e => hb (Finset.mem_image.mpr ⟨w, Finset.mem_univ _, e⟩)

/-- After the three closing slices. -/
abbrev W9 : Dev nD → Valuation τ sig (Elt F) := fun c => StableHlo.after hostOps3 (W8 m c)

/-! ## The proof data family and what rides beside the buffers -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W9 m c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0: entered from every unscoped buffer at what the host stretches leave, left at `W6`. Its arrays are split out of the
    unscoped buffers and put back at the exit contents; the generator register and the scoped rest pass into the
    class's invariant and out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (show Pipeline.ΦA spec0 c ⊢ (pdats m 0 c).Φ 0 from hin0 (E0 m) c)
    unfold Pipeline.ΦA
    iintro ⟨Hp, -, Hr⟩
    isplitl [Hr]; · iexact Hr
    iexact Hp
  hout c := by
    rw [Pipeline.ownSems0_none]
    refine Idealize.SL.BI.BIBase.Entails.trans (show (pdats m 0 c).Φ (Fin.last _) ⊢ Pipeline.ΦA spec0 c from hout0 (E0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1: entered from every unscoped buffer at \`W6\`, left at `W7`. Its arrays are split out of the
    unscoped buffers and put back at the exit contents; the generator register and the scoped rest pass into the
    class's invariant and out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (show Pipeline.ΦA spec1 c ⊢ (pdats m 1 c).Φ 0 from hin1 (E1 m) c)
    unfold Pipeline.ΦA
    iintro ⟨Hp, -, Hr⟩
    isplitl [Hr]; · iexact Hr
    iexact Hp
  hout c := by
    rw [Pipeline.ownSems0_none]
    refine Idealize.SL.BI.BIBase.Entails.trans (show (pdats m 1 c).Φ (Fin.last _) ⊢ Pipeline.ΦA spec1 c from hout1 (E1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2: entered from every unscoped buffer at \`W7\`, left at `W8`. Its arrays are split out of the
    unscoped buffers and put back at the exit contents; the generator register and the scoped rest pass into the
    class's invariant and out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (show Pipeline.ΦA spec2 c ⊢ (pdats m 2 c).Φ 0 from hin2 (E2 m) c)
    unfold Pipeline.ΦA
    iintro ⟨Hp, -, Hr⟩
    isplitl [Hr]; · iexact Hr
    iexact Hp
  hout c := by
    rw [Pipeline.ownSems0_none]
    refine Idealize.SL.BI.BIBase.Entails.trans (show (pdats m 2 c).Φ (Fin.last _) ⊢ Pipeline.ΦA spec2 c from hout2 (E2 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (E3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's nine items in order. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .region (reg0 m),
    .region (reg1 m),
    .region (reg2 m),
    .host (hseg hostOps3 hostOps3_sub hostOps3_fresh (W8 m)) ]

-- the launch theorem's implicit arguments are found by unifying its conclusion with this one, which takes unfolding plain
-- definitions in a metavariable's type
set_option backward.isDefEq.respectTransparency.types false in
/-- THE RUN. From any memory with zero counters every weakly fair execution of @main terminates, nothing faulting,
    and every final state has every unscoped buffer at `W9`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()),
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W9 m c) ∗ R c) ⊢ iprop(Tₙ m c ∗ ∃ W, owes (c : Thread nD τ) (0 : CellTallies nD τ sig Unit) W)
      iintro ⟨Hh, Hp, HO⟩
      isplitl [Hh Hp]
      · isplitl [Hh]
        · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

end Cert.KernelIdeal.Fr

end
-- ==== Proof.KFrame.lean ====
import proofs.«413367_j60610578482006_3_alg».proof.Proof.KRun

set_option maxRecDepth 16384

noncomputable section

namespace Cert.KernelIdeal.Fr

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-- A buffer that no host operation writes and no region has among its arrays ends at its launch contents. -/
theorem W9_arg (c : Dev nD) (r : Ref sig .tc)
    (h : r ∉ hostOps3_W ∧ (∀ w, Pipeline.arrRef spec2 w ≠ r) ∧ (∀ w, Pipeline.arrRef spec1 w ≠ r) ∧ (∀ w, Pipeline.arrRef spec0 w ≠ r)
      ∧ r ∉ hostOps0_4_W ∧ r ∉ hostOps0_3_W ∧ r ∉ hostOps0_2_W ∧ r ∉ hostOps0_1_W ∧ r ∉ hostOps0_W) :
    W9 m c r = m ((c : Thread nD τ).loc r) := by
  obtain ⟨h3, a2, a1, a0, g4, g3, g2, g1, g0⟩ := h
  exact (StableHlo.after_of_writes_sub hostOps3 _ hostOps3_writes h3).trans <| (W8_of_ne m c r a2).trans <|
    (W7_of_ne m c r a1).trans <| (W6_of_ne m c r a0).trans <| (V5_of m c r g4).trans <| (V4_of m c r g3).trans <|
    (V3_of m c r g2).trans <| (V2_of m c r g1).trans <| (V1_of m c r g0).trans rfl

/-- Every argument array holds what the program was launched with. -/
abbrev ArgsKept (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)

/-- Nothing in the program writes an argument. -/
theorem args_kept (c : Dev nD) (mem : (ℓ : Loc nD τ sig) → Buf (Elt F) ℓ)
    (h : ∀ b ∈ Pipeline.ucRefs τ sig, mem (((c : Thread nD τ)).1, b) = W9 m c b) : ArgsKept m mem c :=
  ⟨(h _ (mem_uc main_arg0 (by decide))).trans (W9_arg m c main_arg0 (by decide)),
    (h _ (mem_uc main_arg1 (by decide))).trans (W9_arg m c main_arg1 (by decide)),
    (h _ (mem_uc main_arg2 (by decide))).trans (W9_arg m c main_arg2 (by decide)),
    (h _ (mem_uc main_arg3 (by decide))).trans (W9_arg m c main_arg3 (by decide)),
    (h _ (mem_uc main_arg4 (by decide))).trans (W9_arg m c main_arg4 (by decide)),
    (h _ (mem_uc main_arg5 (by decide))).trans (W9_arg m c main_arg5 (by decide)),
    (h _ (mem_uc main_arg6 (by decide))).trans (W9_arg m c main_arg6 (by decide)),
    (h _ (mem_uc main_arg7 (by decide))).trans (W9_arg m c main_arg7 (by decide)),
    (h _ (mem_uc main_arg8 (by decide))).trans (W9_arg m c main_arg8 (by decide))⟩

/-- At any float family, every weakly fair execution of the program terminates without a fault, its arguments kept. -/
theorem frame_all : θ_run defs (onTc (τ := τ) (main (F := F))) ⟨m, fun _ => 0, ρ⟩ (fun r => ∀ c : Dev nD, ArgsKept m r.2.mem c) :=
  (θ_run defs _ _).mono (fun r h c => args_kept m c r.2.mem (h c)) (run_all m ρ)

end Cert.KernelIdeal.Fr

end
-- ==== Proof.R0Pieces.lean ====
import proofs.«413367_j60610578482006_3_alg».proof.Proof.R0Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

abbrev xrows0 (i : grid0.Coords) (x1 : Vec F S10240x512 .bf16) : Vec F S2048x512 .bf16 :=
  View.ld x1 (Rect.unit (s := S10240x512) (k0_off1 i) S2048x512.size (k0_off1_inb i))

section
variable (c : Dev nD) (o : Ops0)

section
variable (hc0 : ¬cond0_0 o.i) (hc1 : ¬cond0_1 o.i) (x0 : Vec F S1024x2048 .bf16) (x1 : Vec F S10240x512 .bf16) (x2 : Vec F S512x512 .bf16) (x3 : Vec F S1x512 .f32) (xs0 : Vec F S1024x512 .f32)

theorem sout0_B_eq :
    sout0_B c o hc0 hc1 x0 x1 x2 x3 xs0 = k0_pay2 (xrows0 o.i x1) xs0 x0 := by
  unfold sout0_B
  rw [View.read_writes_eq_canon _ _ _ (scover0_B c o hc0 hc1 x0 x1 x2 x3 xs0)]
  unfold kernelRun0_B
  dsimp only
  rw [View.canon_unit_zero hz2]
  simp only [View.readAt_eq_ld, o.harg2.read_unread, o.harg3.read_unread, o.harg7.read_unread,
    View.ld_unit_zero (S := S1024x512) hz2, View.ld_unit_zero (S := S1024x2048) hz2]
  try rfl

end

section
variable (hc0 : cond0_0 o.i) (hc1 : ¬cond0_1 o.i) (x0 : Vec F S1024x2048 .bf16) (x1 : Vec F S10240x512 .bf16) (x2 : Vec F S512x512 .bf16) (x3 : Vec F S1x512 .f32)

theorem sout0_A_eq :
    sout0_A c o hc0 hc1 x0 x1 x2 x3 = k0_pay2 (xrows0 o.i x1) (k0_pay1 (F := F)) x0 := by
  unfold sout0_A
  rw [View.read_writes_eq_canon _ _ _ (scover0_A c o hc0 hc1 x0 x1 x2 x3)]
  unfold kernelRun0_A
  dsimp only
  sl_unfold_words
  rw [View.canon_cons_unit_zero (S := S1024x512) hz2, View.readCov_unit_zero (S := S1024x512) _ hz2]
  simp only [View.readAt_eq_ld, o.harg2.read_unread, o.harg3.read_unread,
    View.ld_unit_zero (S := S1024x512) hz2, View.ld_unit_zero (S := S1024x2048) hz2]
  try rfl

end

section
variable (hc0 : ¬cond0_0 o.i) (hc1 : cond0_1 o.i) (x0 : Vec F S1024x2048 .bf16) (x1 : Vec F S10240x512 .bf16) (x2 : Vec F S512x512 .bf16) (x3 : Vec F S1x512 .f32) (xs0 : Vec F S1024x512 .f32)

theorem sout0_C_eq :
    sout0_C c o hc0 hc1 x0 x1 x2 x3 xs0 = k0_pay2 (xrows0 o.i x1) xs0 x0 := by
  unfold sout0_C
  rw [View.read_writes_eq_canon _ _ _ (scover0_C c o hc0 hc1 x0 x1 x2 x3 xs0)]
  unfold kernelRun0_C
  dsimp only
  sl_unfold_words
  rw [View.canon_unit_zero hz2]
  simp only [View.readAt_eq_ld, o.harg2.read_unread, o.harg3.read_unread, o.harg7.read_unread,
    View.ld_unit_zero (S := S1024x512) hz2, View.ld_unit_zero (S := S1024x2048) hz2]
  try rfl

theorem out0_C_4_eq :
    out0_C_4 c o hc0 hc1 x0 x1 x2 x3 xs0 = k0_pay3 o.i (k0_pay2 (xrows0 o.i x1) xs0 x0) x2 x3 := by
  unfold out0_C_4
  rw [View.read_writes_eq_canon _ _ _ (cover0_C_4 c o hc0 hc1 x0 x1 x2 x3 xs0)]
  unfold kernelRun0_C
  dsimp only
  sl_unfold_words
  rw [View.canon_unit_zero hz2, View.readCov_unit_zero (S := S1024x512) _ hz2]
  simp only [View.readAt_eq_ld, o.harg2.read_unread, o.harg3.read_unread, o.harg4.read_unread, o.harg5.read_unread, o.harg7.read_unread,
    View.ld_unit_zero (S := S1024x512) hz2, View.ld_unit_zero (S := S1024x2048) hz2,
    View.ld_unit_zero (S := S512x512) hz2, View.ld_unit_zero (S := S1x512) hz2]
  try rfl

end

end

end Cert.KernelIdeal.Fr

end
-- ==== Proof.Spec.lean ====
import Idealize.ShloMosaic.PureOps.Ideal
import Idealize.ShloMosaic.Lib.ValueIdx

noncomputable section

namespace Cert.GraphConv

open Idealize.ShloMosaic Idealize.ShloMosaic.ValueIdx
open scoped BigOperators

abbrev SE : Shape := ⟨1, ![160000]⟩
abbrev SN : Shape := ⟨1, ![10000]⟩
abbrev SD : Shape := ⟨1, ![512]⟩
abbrev SND : Shape := ⟨2, ![10000, 512]⟩
abbrev SPD : Shape := ⟨2, ![10240, 512]⟩
abbrev SPP : Shape := ⟨2, ![10240, 10240]⟩
abbrev SDD : Shape := ⟨2, ![512, 512]⟩

def node (idx : SE.Idx → BitVec 32) (e : Fin 160000) : Fin 10000 :=
  ⟨min (idx (ix1 e)).toNat 9999, by omega⟩

def InRange (idx : SE.Idx → BitVec 32) : Prop := ∀ e : Fin 160000, 0 ≤ (idx (ix1 e)).toInt ∧ (idx (ix1 e)).toInt < 10000

def IsReal {s : Shape} (x : s.Idx → EReal) : Prop := ∀ i, ∃ r : ℝ, x i = (r : EReal)

/-- Node `d`'s aggregate: its in-neighbours' rows, each scaled at its source, summed over the edges ending at `d`, scaled at `d`. -/
def agg (X : SND.Idx → EReal) (no ni : SN.Idx → EReal) (src dst : SE.Idx → BitVec 32) (d : Fin 10000) (g : Fin 512) : EReal :=
  (∑ e ∈ Finset.univ.filter (fun e : Fin 160000 => node dst e = d), X (ix2 (node src e) g) * no (ix1 (node src e))) * ni (ix1 d)

def layerAt (X : SND.Idx → EReal) (W : SDD.Idx → EReal) (b : SD.Idx → EReal) (no ni : SN.Idx → EReal)
    (src dst : SE.Idx → BitVec 32) (d : Fin 10000) (f : Fin 512) : EReal :=
  (∑ g : Fin 512, agg X no ni src dst d g * W (ix2 g f)) + b (ix1 f)

def layer (X : SND.Idx → EReal) (W : SDD.Idx → EReal) (b : SD.Idx → EReal) (no ni : SN.Idx → EReal)
    (src dst : SE.Idx → BitVec 32) : SND.Idx → EReal :=
  fun i => layerAt X W b no ni src dst (i 0) (i 1)

def act (relu : Bool) (y : EReal) : EReal := if relu then max y 0 else y

def pad (Y : SND.Idx → EReal) : SPD.Idx → EReal := fun i =>
  if h : (i 0).val < 10000 then Y (ix2 ⟨(i 0).val, h⟩ (i 1)) else 0

/-- The dense edge-weight matrix: entry `(d, s)` sums the weights of the edges from `s` to `d`. -/
def adjOf (no ni : SN.Idx → EReal) (src dst : SE.Idx → BitVec 32) : SPP.Idx → EReal := fun i =>
  ∑ e ∈ Finset.univ.filter (fun e : Fin 160000 => (node dst e).val = (i 0).val ∧ (node src e).val = (i 1).val),
    no (ix1 (node src e)) * ni (ix1 (node dst e))

/-- A layer through a dense matrix on the padded activation; the rows past the last node are zero. -/
def layerK (relu : Bool) (A : SPP.Idx → EReal) (Xp : SPD.Idx → EReal) (W : SDD.Idx → EReal) (b : SD.Idx → EReal) :
    SPD.Idx → EReal := fun i =>
  if (i 0).val < 10000 then
    act relu ((∑ g : Fin 512, (∑ s : Fin 10240, A (ix2 (i 0) s) * Xp (ix2 s g)) * W (ix2 g (i 1))) + b (ix1 (i 1)))
  else 0

/-- The activations layer by layer; `h3` and `h4` both start from `h2`. -/
def h1 (X : SND.Idx → EReal) (W1 : SDD.Idx → EReal) (b1 : SD.Idx → EReal) (no ni : SN.Idx → EReal) (src dst : SE.Idx → BitVec 32) :
    SND.Idx → EReal := fun i => act true (layer X W1 b1 no ni src dst i)
def h2 (X : SND.Idx → EReal) (W1 : SDD.Idx → EReal) (b1 : SD.Idx → EReal) (W2 : SDD.Idx → EReal) (b2 : SD.Idx → EReal)
    (no ni : SN.Idx → EReal) (src dst : SE.Idx → BitVec 32) : SND.Idx → EReal :=
  fun i => act true (layer (h1 X W1 b1 no ni src dst) W2 b2 no ni src dst i)
def h3 (X : SND.Idx → EReal) (W1 : SDD.Idx → EReal) (b1 : SD.Idx → EReal) (W2 : SDD.Idx → EReal) (b2 : SD.Idx → EReal)
    (no ni : SN.Idx → EReal) (src dst : SE.Idx → BitVec 32) : SND.Idx → EReal :=
  fun i => act true (layer (h2 X W1 b1 W2 b2 no ni src dst) W2 b2 no ni src dst i)
def h4 (X : SND.Idx → EReal) (W1 : SDD.Idx → EReal) (b1 : SD.Idx → EReal) (W2 : SDD.Idx → EReal) (b2 : SD.Idx → EReal)
    (W3 : SDD.Idx → EReal) (b3 : SD.Idx → EReal) (no ni : SN.Idx → EReal) (src dst : SE.Idx → BitVec 32) : SND.Idx → EReal :=
  fun i => act false (layer (h2 X W1 b1 W2 b2 no ni src dst) W3 b3 no ni src dst i)

end Cert.GraphConv

end
-- ==== Proof.KMath.lean ====
import proofs.«413367_j60610578482006_3_alg».proof.Proof.Gen.KernelIdeal
import proofs.«413367_j60610578482006_3_alg».proof.Proof.Spec
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws
import Mathlib.Algebra.BigOperators.Fin

noncomputable section

namespace Cert.KernelIdeal.KMath

open Cert.KernelIdeal Cert.KernelIdeal.Gen Cert.GraphConv
open Idealize.ShloMosaic Idealize.ShloMosaic.ValueIdx
open scoped BigOperators

private theorem lhs_acc_0 (i : S1024x512.Idx) (q : dot_S1024x2048_S2048x512_S1024x512_1_0_0_1_n_n.contr.Idx) :
    (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl

private theorem lhs_acc_1 (i : S1024x512.Idx) (q : dot_S1024x2048_S2048x512_S1024x512_1_0_0_1_n_n.contr.Idx) :
    (dot_S1024x2048_S2048x512_S1024x512_1_0_0_1_n_n.lhsIdx i q 1).val = (q ⟨0, by decide⟩).val :=
  dot_S1024x2048_S2048x512_S1024x512_1_0_0_1_n_n.lhsIdx_val_of_single rfl i q

private theorem rhs_acc_0 (i : S1024x512.Idx) (q : dot_S1024x2048_S2048x512_S1024x512_1_0_0_1_n_n.contr.Idx) :
    (dot_S1024x2048_S2048x512_S1024x512_1_0_0_1_n_n.rhsIdx i q 0).val = (q ⟨0, by decide⟩).val :=
  dot_S1024x2048_S2048x512_S1024x512_1_0_0_1_n_n.rhsIdx_val_of_single rfl i q

private theorem rhs_acc_1 (i : S1024x512.Idx) (q : dot_S1024x2048_S2048x512_S1024x512_1_0_0_1_n_n.contr.Idx) :
    (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

theorem matmul_acc_apply (l : FVec Ideal S1024x2048 .bf16) (r : FVec Ideal S2048x512 .bf16) (p : Fin 1024) (q : Fin 512) :
    matmul dot_S1024x2048_S2048x512_S1024x512_1_0_0_1_n_n none l r (constant S1024x512 .f32 0x00000000#32) (ix2 p q)
      = ∑ s : Fin 2048, l (ix2 p s) * r (ix2 s q) := by
  refine (Ideal.matmul_constant_zero_apply dot_S1024x2048_S2048x512_S1024x512_1_0_0_1_n_n none l r (ix2 p q)).trans ?_
  rw [← Equiv.sum_comp (contrEquiv1 dot_S1024x2048_S2048x512_S1024x512_1_0_0_1_n_n 2048 rfl rfl).symm]
  refine Finset.sum_congr rfl fun k _ => ?_
  have hk := contrEquiv1_symm_val dot_S1024x2048_S2048x512_S1024x512_1_0_0_1_n_n 2048 rfl rfl k
  have el : dot_S1024x2048_S2048x512_S1024x512_1_0_0_1_n_n.lhsIdx (ix2 p q) ((contrEquiv1 dot_S1024x2048_S2048x512_S1024x512_1_0_0_1_n_n 2048 rfl rfl).symm k) = ix2 p k := funext fun a => Fin.ext (by
    match a with
    | ⟨0, _⟩ => exact lhs_acc_0 _ _
    | ⟨1, _⟩ => exact (lhs_acc_1 _ _).trans hk)
  have er : dot_S1024x2048_S2048x512_S1024x512_1_0_0_1_n_n.rhsIdx (ix2 p q) ((contrEquiv1 dot_S1024x2048_S2048x512_S1024x512_1_0_0_1_n_n 2048 rfl rfl).symm k) = ix2 k q := funext fun a => Fin.ext (by
    match a with
    | ⟨0, _⟩ => exact (rhs_acc_0 _ _).trans hk
    | ⟨1, _⟩ => exact rhs_acc_1 _ _)
  rw [el, er]

private theorem lhs_out_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl

private theorem lhs_out_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q

private theorem rhs_out_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q

private theorem rhs_out_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

theorem matmul_out_apply (l : FVec Ideal S1024x512 .bf16) (r : FVec Ideal S512x512 .bf16) (p : Fin 1024) (q : Fin 512) :
    matmul dot_S1024x512_S512x512_S1024x512_1_0_0_1_n_n none l r (constant S1024x512 .f32 0x00000000#32) (ix2 p q)
      = ∑ g : Fin 512, l (ix2 p g) * r (ix2 g q) := by
  refine (Ideal.matmul_constant_zero_apply dot_S1024x512_S512x512_S1024x512_1_0_0_1_n_n none l r (ix2 p q)).trans ?_
  rw [← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p q) ((contrEquiv1 dot_S1024x512_S512x512_S1024x512_1_0_0_1_n_n 512 rfl rfl).symm k) = ix2 p k := funext fun a => Fin.ext (by
    match a with
    | ⟨0, _⟩ => exact lhs_out_0 _ _
    | ⟨1, _⟩ => exact (lhs_out_1 _ _).trans hk)
  have er : dot_S1024x512_S512x512_S1024x512_1_0_0_1_n_n.rhsIdx (ix2 p q) ((contrEquiv1 dot_S1024x512_S512x512_S1024x512_1_0_0_1_n_n 512 rfl rfl).symm k) = ix2 k q := funext fun a => Fin.ext (by
    match a with
    | ⟨0, _⟩ => exact (rhs_out_0 _ _).trans hk
    | ⟨1, _⟩ => exact rhs_out_1 _ _)
  rw [el, er]

theorem bias_apply (b : FVec Ideal S1x512 .f32) (p : Fin 1024) (q : Fin 512) :
    broadcastTo S1024x512 (shapeCast S1x512 b shapeCasts_S1x512_S1x512) broadcasts_S1x512_S1024x512 (ix2 p q) = b (ix2 0 q) := by
  rw [shapeCast_self]
  exact broadcastTo_1b_ab_apply b broadcasts_S1x512_S1024x512 p q

private theorem rowWord (i0 : ℕ) (p : ℕ) :
    IntOp.addi (Scalar.muli (BitVec.ofNat 32 i0) 1024#32) (BitVec.ofNat 32 p) = BitVec.ofNat 32 (1024 * i0 + p) := by
  show BitVec.ofNat 32 i0 * BitVec.ofNat 32 1024 + BitVec.ofNat 32 p = _
  rw [← BitVec.ofNat_mul, ← BitVec.ofNat_add, Nat.mul_comm]

theorem rowMask_apply (i0 : ℕ) (h0 : i0 < 10) (p : Fin 1024) (q : Fin 512) :
    cmpi .slt (addi (broadcast S1024x512 (Scalar.muli (BitVec.ofNat 32 i0) 1024#32)) (iota .tc S1024x512 32 [0] iota_S1024x512_d0_w32))
        (broadcast S1024x512 10000#32) (ix2 p q)
      = if 1024 * i0 + p.val < 10000 then 1#1 else 0#1 := by
  have hp := p.isLt
  show IntOp.cmpi .slt (IntOp.addi (Scalar.muli (BitVec.ofNat 32 i0) 1024#32) (iota .tc S1024x512 32 [0] iota_S1024x512_d0_w32 (ix2 p q))) 10000#32 = _
  rw [iota_single_apply]
  show IntOp.cmpi .slt (IntOp.addi (Scalar.muli (BitVec.ofNat 32 i0) 1024#32) (BitVec.ofNat 32 p.val)) 10000#32 = _
  rw [rowWord]
  have hn : (BitVec.ofNat 32 (1024 * i0 + p.val)).toNat = 1024 * i0 + p.val := by
    rw [BitVec.toNat_ofNat]; exact Nat.mod_eq_of_lt (by omega)
  have hm : (10000#32).toNat = 10000 := rfl
  have hiff := StableHlo.Predicate.slt_iff_toNat (a := BitVec.ofNat 32 (1024 * i0 + p.val)) (b := 10000#32) (by rw [hn]; omega) (by rw [hm]; omega)
  rw [hn, hm] at hiff
  by_cases h : 1024 * i0 + p.val < 10000
  · rw [if_pos h]; exact hiff.mpr h
  · rw [if_neg h]; exact eq_zero_of_ne_one fun hc => h (hiff.mp hc)

/-- A sum over 10240 columns is the sum of its five blocks of 2048. -/
theorem blocks_sum (f : Fin 10240 → EReal) :
    (∑ j : Fin 5, ∑ s : Fin 2048, f ⟨2048 * j.val + s.val, by have := j.isLt; have := s.isLt; omega⟩) = ∑ s' : Fin 10240, f s' := by
  calc _ = ∑ x : Fin 5 × Fin 2048, f ((finProdFinEquiv : Fin 5 × Fin 2048 ≃ Fin 10240) x) := by
        rw [Fintype.sum_prod_type]
        refine Finset.sum_congr rfl fun j _ => Finset.sum_congr rfl fun s _ => congrArg f (Fin.ext ?_)
        show 2048 * j.val + s.val = s.val + 2048 * j.val
        omega
    _ = _ := Equiv.sum_comp _ f

theorem blocks_sum_succ (f : Fin 10240 → EReal) (k : ℕ) (hk : k + 1 < 5) :
    (∑ j ∈ Finset.univ.filter (fun j : Fin 5 => j.val ≤ k + 1), ∑ s : Fin 2048, f ⟨2048 * j.val + s.val, by have := j.isLt; have := s.isLt; omega⟩)
      = (∑ j ∈ Finset.univ.filter (fun j : Fin 5 => j.val ≤ k), ∑ s : Fin 2048, f ⟨2048 * j.val + s.val, by have := j.isLt; have := s.isLt; omega⟩)
        + ∑ s : Fin 2048, f ⟨2048 * (k + 1) + s.val, by have := s.isLt; omega⟩ := by
  have hins : Finset.univ.filter (fun j : Fin 5 => j.val ≤ k + 1)
      = insert (⟨k + 1, hk⟩ : Fin 5) (Finset.univ.filter (fun j : Fin 5 => j.val ≤ k)) := by
    ext j
    simp only [Finset.mem_filter, Finset.mem_univ, true_and, Finset.mem_insert, Fin.ext_iff]
    omega
  have hnot : (⟨k + 1, hk⟩ : Fin 5) ∉ Finset.univ.filter (fun j : Fin 5 => j.val ≤ k) := by
    simp only [Finset.mem_filter, Finset.mem_univ, true_and]
    omega
  rw [hins, Finset.sum_insert hnot, add_comm]

end Cert.KernelIdeal.KMath

end
-- ==== Proof.KBlocks.lean ====
import proofs.«413367_j60610578482006_3_alg».proof.Proof.KMath

noncomputable section

namespace Cert.KernelIdeal.Fr

open Cert.GraphConv Cert.KernelIdeal.KMath
open Idealize.ShloMosaic Idealize.ShloMosaic.ValueIdx
open scoped BigOperators

def brow (r : ℕ) (p : Fin 1024) : Fin 10240 := ⟨(1024 * r + p.val) % 10240, Nat.mod_lt _ (by decide)⟩

def bcol (k : ℕ) (s : Fin 2048) : Fin 10240 := ⟨(2048 * k + s.val) % 10240, Nat.mod_lt _ (by decide)⟩

theorem brow_val (r : ℕ) (hr : r < 10) (p : Fin 1024) : (brow r p).val = 1024 * r + p.val := by
  have := p.isLt; unfold brow; dsimp only; omega
theorem bcol_val (k : ℕ) (hk : k < 5) (s : Fin 2048) : (bcol k s).val = 2048 * k + s.val := by
  have := s.isLt; unfold bcol; dsimp only; omega

def term0 (A : SPP.Idx → EReal) (X : SPD.Idx → EReal) (R : Fin 10240) (q : Fin 512) (s' : Fin 10240) : EReal :=
  A (ix2 R s') * X (ix2 s' q)

def partRow (A : SPP.Idx → EReal) (X : SPD.Idx → EReal) (R : Fin 10240) (q : Fin 512) (k : ℕ) : EReal :=
  ∑ j ∈ Finset.univ.filter (fun j : Fin 5 => j.val ≤ k), ∑ s : Fin 2048,
    term0 A X R q ⟨2048 * j.val + s.val, by have := j.isLt; have := s.isLt; omega⟩

theorem bcol_eq (k : ℕ) (hk : k < 5) (s : Fin 2048) : bcol k s = ⟨2048 * k + s.val, by have := s.isLt; omega⟩ :=
  Fin.ext (bcol_val k hk s)

theorem partRow_zero (A : SPP.Idx → EReal) (X : SPD.Idx → EReal) (R : Fin 10240) (q : Fin 512) :
    partRow A X R q 0 = ∑ s : Fin 2048, A (ix2 R (bcol 0 s)) * X (ix2 (bcol 0 s) q) := by
  unfold partRow
  rw [show (Finset.univ.filter fun j : Fin 5 => j.val ≤ 0) = {(0 : Fin 5)} from by decide, Finset.sum_singleton]
  refine Finset.sum_congr rfl fun s _ => ?_
  unfold term0
  rw [bcol_eq 0 (by decide) s]
  rfl

theorem partRow_succ (A : SPP.Idx → EReal) (X : SPD.Idx → EReal) (R : Fin 10240) (q : Fin 512) (k : ℕ) (hk : k + 1 < 5) :
    partRow A X R q (k + 1) = partRow A X R q k + ∑ s : Fin 2048, A (ix2 R (bcol (k + 1) s)) * X (ix2 (bcol (k + 1) s) q) := by
  unfold partRow
  rw [blocks_sum_succ (term0 A X R q) k hk]
  congr 1
  refine Finset.sum_congr rfl fun s _ => ?_
  unfold term0
  rw [bcol_eq (k + 1) hk s]

theorem partRow_full (A : SPP.Idx → EReal) (X : SPD.Idx → EReal) (R : Fin 10240) (q : Fin 512) :
    partRow A X R q 4 = ∑ s' : Fin 10240, A (ix2 R s') * X (ix2 s' q) := by
  unfold partRow
  rw [show (Finset.univ.filter fun j : Fin 5 => j.val ≤ 4) = Finset.univ from by decide]
  exact blocks_sum (term0 A X R q)

end Cert.KernelIdeal.Fr

end
-- ==== Proof.R0Value.lean ====
import proofs.«413367_j60610578482006_3_alg».proof.Proof.R0Pieces
import proofs.«413367_j60610578482006_3_alg».proof.Proof.KBlocks

set_option maxRecDepth 16384

noncomputable section

namespace Cert.KernelIdeal.Fr

open Cert.KernelIdeal Cert.KernelIdeal.Gen Cert.GraphConv Cert.KernelIdeal.KMath
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b)) (c : Dev nD)

abbrev opA0 : SPP.Idx → EReal := V c main_v44
abbrev opX0 : SPD.Idx → EReal := V c main_v48
abbrev opW0 : SDD.Idx → EReal := V c main_v49
abbrev opB0 : (⟨2, ![1, 512]⟩ : Shape).Idx → EReal := V c main_v52

theorem idx0_0 : ∀ t : Fin cfg0.N, win0_0.index t 0 = t.val / 5 ∧ win0_0.index t 1 = t.val % 5 :=
  (by decide +kernel : ∀ t : Fin grid0.N, win0_0.index t 0 = t.val / 5 ∧ win0_0.index t 1 = t.val % 5)
theorem idx0_1 : ∀ t : Fin cfg0.N, win0_1.index t 0 = 0 ∧ win0_1.index t 1 = 0 :=
  (by decide +kernel : ∀ t : Fin grid0.N, win0_1.index t 0 = 0 ∧ win0_1.index t 1 = 0)
theorem idx0_2 : ∀ t : Fin cfg0.N, win0_2.index t 0 = 0 ∧ win0_2.index t 1 = 0 :=
  (by decide +kernel : ∀ t : Fin grid0.N, win0_2.index t 0 = 0 ∧ win0_2.index t 1 = 0)
theorem idx0_3 : ∀ t : Fin cfg0.N, win0_3.index t 0 = 0 ∧ win0_3.index t 1 = 0 :=
  (by decide +kernel : ∀ t : Fin grid0.N, win0_3.index t 0 = 0 ∧ win0_3.index t 1 = 0)
theorem idx0_4 : ∀ t : Fin cfg0.N, win0_4.index t 0 = t.val / 5 ∧ win0_4.index t 1 = 0 :=
  (by decide +kernel : ∀ t : Fin grid0.N, win0_4.index t 0 = t.val / 5 ∧ win0_4.index t 1 = 0)
theorem off0 : ∀ t : Fin cfg0.N, k0_off1 (grid0.coords t) 0 = 2048 * (t.val % 5) ∧ k0_off1 (grid0.coords t) 1 = 0 :=
  (by decide +kernel : ∀ t : Fin grid0.N, k0_off1 (grid0.coords t) 0 = 2048 * (t.val % 5) ∧ k0_off1 (grid0.coords t) 1 = 0)
theorem coord0 : ∀ t : Fin cfg0.N, ((grid0.coords t) 0).val = t.val / 5 :=
  (by decide +kernel : ∀ t : Fin grid0.N, ((grid0.coords t) 0).val = t.val / 5)

abbrev ablk0 (t : Fin cfg0.N) : Vec Ideal S1024x2048 .bf16 := iblk0 V c 0 t
abbrev xblk0 (t : Fin cfg0.N) : Vec Ideal S10240x512 .bf16 := iblk0 V c 1 t
abbrev wblk0 (t : Fin cfg0.N) : Vec Ideal S512x512 .bf16 := iblk0 V c 2 t
abbrev bblk0 (t : Fin cfg0.N) : Vec Ideal S1x512 .f32 := iblk0 V c 3 t

theorem iblk0_0_apply (t : Fin cfg0.N) (p : Fin 1024) (s : Fin 2048) :
    ablk0 V c t (ix2 p s) = opA0 V c (ix2 (brow (t.val / 5) p) (bcol (t.val % 5) s)) := by
  have hN : t.val < 50 := lt_of_lt_of_eq t.isLt (show cfg0.N = 50 from N_0)
  unfold ablk0 iblk0
  rw [View.read_apply]
  show V c main_v44 _ = V c main_v44 _
  congr 1
  funext a
  apply Fin.ext
  match a with
  | ⟨0, _⟩ =>
    show win0_0.index t 0 * 1024 + 1 * p.val = (brow (t.val / 5) p).val
    rw [(idx0_0 t).1, brow_val _ (by omega)]; omega
  | ⟨1, _⟩ =>
    show win0_0.index t 1 * 2048 + 1 * s.val = (bcol (t.val % 5) s).val
    rw [(idx0_0 t).2, bcol_val _ (by omega)]; omega

theorem iblk0_1_eq (t : Fin cfg0.N) : xblk0 V c t = opX0 V c := by
  funext y
  unfold xblk0 iblk0
  rw [View.read_apply]
  show V c main_v48 _ = V c main_v48 _
  congr 1
  funext a
  apply Fin.ext
  match a with
  | ⟨0, _⟩ => show win0_1.index t 0 * 10240 + 1 * (y 0).val = (y 0).val; rw [(idx0_1 t).1]; omega
  | ⟨1, _⟩ => show win0_1.index t 1 * 512 + 1 * (y 1).val = (y 1).val; rw [(idx0_1 t).2]; omega
theorem iblk0_2_eq (t : Fin cfg0.N) : wblk0 V c t = opW0 V c := by
  funext y
  unfold wblk0 iblk0
  rw [View.read_apply]
  show V c main_v49 _ = V c main_v49 _
  congr 1
  funext a
  apply Fin.ext
  match a with
  | ⟨0, _⟩ => show win0_2.index t 0 * 512 + 1 * (y 0).val = (y 0).val; rw [(idx0_2 t).1]; omega
  | ⟨1, _⟩ => show win0_2.index t 1 * 512 + 1 * (y 1).val = (y 1).val; rw [(idx0_2 t).2]; omega
theorem iblk0_3_eq (t : Fin cfg0.N) : bblk0 V c t = opB0 V c := by
  funext y
  unfold bblk0 iblk0
  rw [View.read_apply]
  show V c main_v52 _ = V c main_v52 _
  congr 1
  funext a
  apply Fin.ext
  match a with
  | ⟨0, _⟩ => show win0_3.index t 0 * 1 + 1 * (y 0).val = (y 0).val; rw [(idx0_3 t).1]; omega
  | ⟨1, _⟩ => show win0_3.index t 1 * 512 + 1 * (y 1).val = (y 1).val; rw [(idx0_3 t).2]; omega

theorem xrows0_apply (t : Fin cfg0.N) (X : Vec Ideal S10240x512 .bf16) (s : Fin 2048) (q : Fin 512) :
    xrows0 (grid0.coords t) X (ix2 s q) = X (ix2 (bcol (t.val % 5) s) q) := by
  have hN : t.val < 50 := lt_of_lt_of_eq t.isLt (show cfg0.N = 50 from N_0)
  unfold xrows0 View.ld
  congr 1
  funext a
  apply Fin.ext
  match a with
  | ⟨0, _⟩ =>
    show k0_off1 (grid0.coords t) 0 + 1 * s.val = (bcol (t.val % 5) s).val
    rw [(off0 t).1, bcol_val _ (by omega)]; omega
  | ⟨1, _⟩ =>
    show k0_off1 (grid0.coords t) 1 + 1 * q.val = q.val
    rw [(off0 t).2]; omega

theorem pay1_0_apply (p : Fin 1024) (q : Fin 512) : k0_pay1 (F := Ideal) (ix2 p q) = 0 := by
  unfold k0_pay1
  simp only [shapeCast_self]
  exact Ideal.ofBits_zero_f32

theorem pay2_0_apply (v6 : Vec Ideal S2048x512 .bf16) (v8 : Vec Ideal S1024x512 .f32) (v9 : Vec Ideal S1024x2048 .bf16)
    (p : Fin 1024) (q : Fin 512) :
    k0_pay2 v6 v8 v9 (ix2 p q) = v8 (ix2 p q) + ∑ s : Fin 2048, v9 (ix2 p s) * v6 (ix2 s q) := by
  unfold k0_pay2
  simp only [shapeCast_self]
  exact congrArg (v8 (ix2 p q) + ·) (matmul_acc_apply v9 v6 p q)

theorem pay3_0_apply (i : grid0.Coords) (v19 : Vec Ideal S1024x512 .f32) (v21 : Vec Ideal S512x512 .bf16) (v24 : Vec Ideal S1x512 .f32)
    (p : Fin 1024) (q : Fin 512) :
    k0_pay3 i v19 v21 v24 (ix2 p q)
      = if 1024 * (i 0).val + p.val < 10000 then max ((∑ g : Fin 512, v19 (ix2 p g) * v21 (ix2 g q)) + v24 (ix2 0 q)) 0 else 0 := by
  have hi : (i 0).val < 10 := (i 0).isLt
  unfold k0_pay3
  simp only [shapeCast_self]
  show Scalar.select (cmpi .slt (addi (broadcast S1024x512 (Scalar.muli (BitVec.ofNat 32 (i 0).val) 1024#32)) (iota .tc S1024x512 32 [0] Facts₀.iota_S1024x512_d0_w32))
      (broadcast S1024x512 10000#32) (ix2 p q)) _ _ = _
  rw [rowMask_apply (i 0).val hi p q]
  by_cases h : 1024 * (i 0).val + p.val < 10000
  · rw [if_pos h, if_pos h, select_one]
    have hb := bias_apply v24 p q
    rw [shapeCast_self] at hb
    show max (matmul (F := Ideal) dot_S1024x512_S512x512_S1024x512_1_0_0_1_n_n none (truncf .bf16 v19 Facts₀.bitsLt_bf16_f32) v21 (constant (F := Ideal) S1024x512 .f32 0x00000000#32) (ix2 p q)
        + broadcastTo S1024x512 v24 Facts₀.broadcasts_S1x512_S1024x512 (ix2 p q)) (Ideal.ofBits .f32 0x00000000#32) = _
    rw [matmul_out_apply, hb, Ideal.ofBits_zero_f32]
    rfl
  · rw [if_neg h, if_neg h, select_zero]
    exact Ideal.ofBits_zero_f32

theorem prod0_apply (t : Fin cfg0.N) (p : Fin 1024) (q : Fin 512) :
    (∑ s : Fin 2048, ablk0 V c t (ix2 p s) * xrows0 (grid0.coords t) (xblk0 V c t) (ix2 s q))
      = ∑ s : Fin 2048, opA0 V c (ix2 (brow (t.val / 5) p) (bcol (t.val % 5) s)) * opX0 V c (ix2 (bcol (t.val % 5) s) q) := by
  refine Finset.sum_congr rfl fun s _ => ?_
  rw [iblk0_0_apply, iblk0_1_eq, xrows0_apply]

/-- After column block `k` of a grid row the accumulator holds each matrix row against the activation over blocks `0 … k`. -/
theorem acc0_eq : ∀ (n : ℕ) (h : n < cfg0.N) (p : Fin 1024) (q : Fin 512),
    (outsAt0 V c n h).2 (ix2 p q) = partRow (opA0 V c) (opX0 V c) (brow (n / 5) p) q (n % 5)
  | 0, h, p, q => by
    have e := outsAt0_A V c ⟨0, h⟩ rfl (by show ¬(0 : ℕ) % 5 = 4; decide)
    rw [show outsAt0 V c 0 h = _ from e]
    dsimp only
    rw [sout0_A_eq, pay2_0_apply, pay1_0_apply, zero_add, prod0_apply, partRow_zero]
    rfl
  | n + 1, h, p, q => by
    have hN : n + 1 < 50 := lt_of_lt_of_eq h (show cfg0.N = 50 from N_0)
    have ih := acc0_eq n (Nat.lt_of_succ_lt h)
    by_cases h0 : (n + 1) % 5 = 0
    · have h1 : ¬(n + 1) % 5 = 4 := by omega
      have e := outsAt0_A V c ⟨n + 1, h⟩ h0 h1
      rw [show outsAt0 V c (n + 1) h = _ from e]
      dsimp only
      rw [sout0_A_eq, pay2_0_apply, pay1_0_apply, zero_add, prod0_apply]
      show _ = partRow (opA0 V c) (opX0 V c) (brow ((n + 1) / 5) p) q ((n + 1) % 5)
      rw [h0, partRow_zero]
    · have e5 : (n + 1) / 5 = n / 5 := by omega
      have em : (n + 1) % 5 = n % 5 + 1 := by omega
      have hk : n % 5 + 1 < 5 := by omega
      have hprev : ∀ (h' : (⟨n + 1, h⟩ : Fin cfg0.N).val - 1 < cfg0.N),
          (outsAt0 V c ((⟨n + 1, h⟩ : Fin cfg0.N).val - 1) h').2 (ix2 p q) = partRow (opA0 V c) (opX0 V c) (brow (n / 5) p) q (n % 5) :=
        fun h' => ih p q
      by_cases h1 : (n + 1) % 5 = 4
      · have e := outsAt0_C V c ⟨n + 1, h⟩ h0 h1
        rw [show outsAt0 V c (n + 1) h = _ from e]
        dsimp only
        rw [sout0_C_eq, pay2_0_apply, hprev, prod0_apply]
        show _ + (∑ s : Fin 2048, opA0 V c (ix2 (brow ((n + 1) / 5) p) (bcol ((n + 1) % 5) s)) * opX0 V c (ix2 (bcol ((n + 1) % 5) s) q))
          = partRow (opA0 V c) (opX0 V c) (brow ((n + 1) / 5) p) q ((n + 1) % 5)
        rw [e5, em, partRow_succ _ _ _ _ _ hk]
      · have e := outsAt0_B V c ⟨n + 1, h⟩ h0 h1
        rw [show outsAt0 V c (n + 1) h = _ from e]
        dsimp only
        rw [sout0_B_eq, pay2_0_apply, hprev, prod0_apply]
        show _ + (∑ s : Fin 2048, opA0 V c (ix2 (brow ((n + 1) / 5) p) (bcol ((n + 1) % 5) s)) * opX0 V c (ix2 (bcol ((n + 1) % 5) s) q))
          = partRow (opA0 V c) (opX0 V c) (brow ((n + 1) / 5) p) q ((n + 1) % 5)
        rw [e5, em, partRow_succ _ _ _ _ _ hk]

abbrev G0 : SPD.Idx → EReal :=
  layerK true (opA0 V c) (opX0 V c) (opW0 V c) (fun j => opB0 V c (ix2 0 (j 0)))

theorem out0_eq (t : Fin cfg0.N) (h1 : t.val % 5 = 4) (p : Fin 1024) (q : Fin 512) :
    (outsAt0 V c t.val t.isLt).1 (ix2 p q) = G0 V c (ix2 (brow (t.val / 5) p) q) := by
  have hN : t.val < 50 := lt_of_lt_of_eq t.isLt (show cfg0.N = 50 from N_0)
  have h0 : ¬t.val % 5 = 0 := by omega
  have hR : (brow (t.val / 5) p).val = 1024 * (t.val / 5) + p.val := brow_val _ (by omega) p
  have hs : ∀ g : Fin 512, (outsAt0 V c t.val t.isLt).2 (ix2 p g) = ∑ s' : Fin 10240, opA0 V c (ix2 (brow (t.val / 5) p) s') * opX0 V c (ix2 s' g) := by
    intro g
    rw [acc0_eq V c t.val t.isLt p g, h1, partRow_full]
  have e := outsAt0_C V c t h0 h1
  have e2 : (outsAt0 V c t.val t.isLt).2 = _ := congrArg Prod.snd e
  dsimp only at e2
  rw [sout0_C_eq] at e2
  rw [e]
  dsimp only
  rw [out0_C_4_eq, pay3_0_apply, coord0 t, ← e2]
  show _ = (if (brow (t.val / 5) p).val < 10000 then
      act true ((∑ g : Fin 512, (∑ s : Fin 10240, opA0 V c (ix2 (brow (t.val / 5) p) s) * opX0 V c (ix2 s g)) * opW0 V c (ix2 g q)) + opB0 V c (ix2 0 q))
    else 0)
  rw [hR]
  by_cases hlt : 1024 * (t.val / 5) + p.val < 10000
  · rw [if_pos hlt, if_pos hlt]
    unfold act
    rw [if_pos rfl]
    show max ((∑ g : Fin 512, (outsAt0 V c t.val t.isLt).2 (ix2 p g) * wblk0 V c t (ix2 g q)) + bblk0 V c t (ix2 0 q)) 0
      = max ((∑ g : Fin 512, (∑ s : Fin 10240, opA0 V c (ix2 (brow (t.val / 5) p) s) * opX0 V c (ix2 s g)) * opW0 V c (ix2 g q)) + opB0 V c (ix2 0 q)) 0
    rw [iblk0_2_eq, iblk0_3_eq]
    simp only [hs]
  · rw [if_neg hlt, if_neg hlt]

theorem flushed0_eq (t : Fin cfg0.N) (hf : (cfg0.win 4).flush t = true) :
    (dat0 V c).flushed 4 t = ((cfg0.win 4).blk t).view.read (Elt Ideal) (G0 V c) := by
  have hN : t.val < 50 := lt_of_lt_of_eq t.isLt (show cfg0.N = 50 from N_0)
  have h1 : t.val % 5 = 4 := (flush0_4 t).mp hf
  show (cfg0.win 4).cut (grid0.coords t) ((dat0 V c).after 4 t) = _
  rw [after0_4]
  funext y
  show (outsAt0 V c t.val t.isLt).1 y = G0 V c (((cfg0.win 4).blk t).view.emb y)
  obtain ⟨p, q, rfl⟩ : ∃ (p : Fin 1024) (q : Fin 512), y = ix2 p q := ⟨y 0, y 1, eq_ix2 y⟩
  have hemb : ((cfg0.win 4).blk t).view.emb (ix2 p q) = ix2 (brow (t.val / 5) p) q := by
    funext a
    apply Fin.ext
    match a with
    | ⟨0, _⟩ =>
      show win0_4.index t 0 * 1024 + 1 * p.val = (brow (t.val / 5) p).val
      rw [(idx0_4 t).1, brow_val (t.val / 5) (by omega) p]; omega
    | ⟨1, _⟩ =>
      show win0_4.index t 1 * 512 + 1 * q.val = q.val
      rw [(idx0_4 t).2]; omega
  rw [hemb]
  exact out0_eq V c t h1 p q

theorem cover0 (i : SPD.Idx) : ∃ t : Fin cfg0.N, (cfg0.win 4).flush t = true ∧ i ∈ ((cfg0.win 4).blk t).view.set := by
  have hi0 : (i 0).val < 10240 := (i 0).isLt
  have hi1 : (i 1).val < 512 := (i 1).isLt
  have hlt : 5 * ((i 0).val / 1024) + 4 < cfg0.N := by rw [show cfg0.N = 50 from N_0]; omega
  refine ⟨⟨5 * ((i 0).val / 1024) + 4, hlt⟩, (flush0_4 _).mpr (by dsimp only; omega), ?_⟩
  show i ∈ ((View.whole main_v55).slice (win0_4.rect ⟨5 * ((i 0).val / 1024) + 4, hlt⟩)).set
  rw [View.set_slice_whole, Rect.mem_set_unit]
  intro a
  match a with
  | ⟨0, _⟩ =>
    show win0_4.index ⟨5 * ((i 0).val / 1024) + 4, hlt⟩ 0 * 1024 ≤ (i 0).val ∧ (i 0).val < win0_4.index ⟨5 * ((i 0).val / 1024) + 4, hlt⟩ 0 * 1024 + 1024
    rw [(idx0_4 ⟨5 * ((i 0).val / 1024) + 4, hlt⟩).1]; dsimp only; omega
  | ⟨1, _⟩ =>
    show win0_4.index ⟨5 * ((i 0).val / 1024) + 4, hlt⟩ 1 * 512 ≤ (i 1).val ∧ (i 1).val < win0_4.index ⟨5 * ((i 0).val / 1024) + 4, hlt⟩ 1 * 512 + 512
    rw [(idx0_4 ⟨5 * ((i 0).val / 1024) + 4, hlt⟩).2]; omega

theorem final0 : (dat0 V c).arrAt 4 cfg0.N = G0 V c :=
  (dat0 V c).arrAt_eq_of_cover 4 (G0 V c) (fun t hf => flushed0_eq V c t hf) cover0

end Cert.KernelIdeal.Fr

end
-- ==== Proof.R1Pieces.lean ====
import proofs.«413367_j60610578482006_3_alg».proof.Proof.R1Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_1 : (![0, 0] : Fin 2 → Nat) = fun _ => 0 := funext fun a => by fin_cases a <;> rfl

abbrev xrows1 (i : grid1.Coords) (x1 : Vec F S10240x512 .bf16) : Vec F S2048x512 .bf16 :=
  View.ld x1 (Rect.unit (s := S10240x512) (k1_off1 i) S2048x512.size (k1_off1_inb i))

section
variable (c : Dev nD) (o : Ops1)

section
variable (hc0 : ¬cond1_0 o.i) (hc1 : ¬cond1_1 o.i) (x0 : Vec F S1024x2048 .bf16) (x1 : Vec F S10240x512 .bf16) (x2 : Vec F S512x512 .bf16) (x3 : Vec F S1x512 .f32) (xs0 : Vec F S1024x512 .f32)

theorem sout1_B_eq :
    sout1_B c o hc0 hc1 x0 x1 x2 x3 xs0 = k1_pay2 (xrows1 o.i x1) xs0 x0 := by
  unfold sout1_B
  rw [View.read_writes_eq_canon _ _ _ (scover1_B c o hc0 hc1 x0 x1 x2 x3 xs0)]
  unfold kernelRun1_B
  dsimp only
  rw [View.canon_unit_zero hz2_1]
  simp only [View.readAt_eq_ld, o.harg2.read_unread, o.harg3.read_unread, o.harg8.read_unread,
    View.ld_unit_zero (S := S1024x512) hz2_1, View.ld_unit_zero (S := S1024x2048) hz2_1]
  try rfl

end

section
variable (hc0 : cond1_0 o.i) (hc1 : ¬cond1_1 o.i) (x0 : Vec F S1024x2048 .bf16) (x1 : Vec F S10240x512 .bf16) (x2 : Vec F S512x512 .bf16) (x3 : Vec F S1x512 .f32)

theorem sout1_A_eq :
    sout1_A c o hc0 hc1 x0 x1 x2 x3 = k1_pay2 (xrows1 o.i x1) (k1_pay1 (F := F)) x0 := by
  unfold sout1_A
  rw [View.read_writes_eq_canon _ _ _ (scover1_A c o hc0 hc1 x0 x1 x2 x3)]
  unfold kernelRun1_A
  dsimp only
  sl_unfold_words
  rw [View.canon_cons_unit_zero (S := S1024x512) hz2_1, View.readCov_unit_zero (S := S1024x512) _ hz2_1]
  simp only [View.readAt_eq_ld, o.harg2.read_unread, o.harg3.read_unread,
    View.ld_unit_zero (S := S1024x512) hz2_1, View.ld_unit_zero (S := S1024x2048) hz2_1]
  try rfl

end

section
variable (hc0 : ¬cond1_0 o.i) (hc1 : cond1_1 o.i) (x0 : Vec F S1024x2048 .bf16) (x1 : Vec F S10240x512 .bf16) (x2 : Vec F S512x512 .bf16) (x3 : Vec F S1x512 .f32) (xs0 : Vec F S1024x512 .f32)

theorem sout1_C_eq :
    sout1_C c o hc0 hc1 x0 x1 x2 x3 xs0 = k1_pay2 (xrows1 o.i x1) xs0 x0 := by
  unfold sout1_C
  rw [View.read_writes_eq_canon _ _ _ (scover1_C c o hc0 hc1 x0 x1 x2 x3 xs0)]
  unfold kernelRun1_C
  dsimp only
  sl_unfold_words
  rw [View.canon_unit_zero hz2_1]
  simp only [View.readAt_eq_ld, o.harg2.read_unread, o.harg3.read_unread, o.harg8.read_unread,
    View.ld_unit_zero (S := S1024x512) hz2_1, View.ld_unit_zero (S := S1024x2048) hz2_1]
  try rfl

theorem out1_C_4_eq :
    out1_C_4 c o hc0 hc1 x0 x1 x2 x3 xs0 = k1_pay3 o.i (k1_pay2 (xrows1 o.i x1) xs0 x0) x2 x3 := by
  unfold out1_C_4
  rw [View.read_writes_eq_canon _ _ _ (cover1_C_4 c o hc0 hc1 x0 x1 x2 x3 xs0)]
  unfold kernelRun1_C
  dsimp only
  sl_unfold_words
  rw [View.canon_unit_zero hz2_1, View.readCov_unit_zero (S := S1024x512) _ hz2_1]
  simp only [View.readAt_eq_ld, o.harg2.read_unread, o.harg3.read_unread, o.harg4.read_unread, o.harg5.read_unread, o.harg8.read_unread,
    View.ld_unit_zero (S := S1024x512) hz2_1, View.ld_unit_zero (S := S1024x2048) hz2_1,
    View.ld_unit_zero (S := S512x512) hz2_1, View.ld_unit_zero (S := S1x512) hz2_1]
  try rfl

theorem out1_C_5_eq :
    out1_C_5 c o hc0 hc1 x0 x1 x2 x3 xs0 = k1_pay4 o.i (k1_pay2 (xrows1 o.i x1) xs0 x0) x2 x3 := by
  unfold out1_C_5
  rw [View.read_writes_eq_canon _ _ _ (cover1_C_5 c o hc0 hc1 x0 x1 x2 x3 xs0)]
  unfold kernelRun1_C
  dsimp only
  sl_unfold_words
  rw [View.canon_unit_zero hz2_1, View.readCov_unit_zero (S := S1024x512) _ hz2_1]
  simp only [View.readAt_eq_ld, o.harg2.read_unread, o.harg3.read_unread, o.harg4.read_unread, o.harg5.read_unread, o.harg8.read_unread,
    View.ld_unit_zero (S := S1024x512) hz2_1, View.ld_unit_zero (S := S1024x2048) hz2_1,
    View.ld_unit_zero (S := S512x512) hz2_1, View.ld_unit_zero (S := S1x512) hz2_1]
  try rfl

end

end

end Cert.KernelIdeal.Fr

end
-- ==== Proof.R1Value.lean ====
import proofs.«413367_j60610578482006_3_alg».proof.Proof.R1Pieces
import proofs.«413367_j60610578482006_3_alg».proof.Proof.KBlocks

set_option maxRecDepth 16384

noncomputable section

namespace Cert.KernelIdeal.Fr

open Cert.KernelIdeal Cert.KernelIdeal.Gen Cert.GraphConv Cert.KernelIdeal.KMath
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b)) (c : Dev nD)

abbrev opA1 : SPP.Idx → EReal := V c main_v44
abbrev opX1 : SPD.Idx → EReal := V c main_v55
abbrev opW1 : SDD.Idx → EReal := V c main_v50
abbrev opB1 : (⟨2, ![1, 512]⟩ : Shape).Idx → EReal := V c main_v53

theorem idx1_0 : ∀ t : Fin cfg1.N, win1_0.index t 0 = t.val / 5 ∧ win1_0.index t 1 = t.val % 5 :=
  (by decide +kernel : ∀ t : Fin grid1.N, win1_0.index t 0 = t.val / 5 ∧ win1_0.index t 1 = t.val % 5)
theorem idx1_1 : ∀ t : Fin cfg1.N, win1_1.index t 0 = 0 ∧ win1_1.index t 1 = 0 :=
  (by decide +kernel : ∀ t : Fin grid1.N, win1_1.index t 0 = 0 ∧ win1_1.index t 1 = 0)
theorem idx1_2 : ∀ t : Fin cfg1.N, win1_2.index t 0 = 0 ∧ win1_2.index t 1 = 0 :=
  (by decide +kernel : ∀ t : Fin grid1.N, win1_2.index t 0 = 0 ∧ win1_2.index t 1 = 0)
theorem idx1_3 : ∀ t : Fin cfg1.N, win1_3.index t 0 = 0 ∧ win1_3.index t 1 = 0 :=
  (by decide +kernel : ∀ t : Fin grid1.N, win1_3.index t 0 = 0 ∧ win1_3.index t 1 = 0)
theorem idx1_4 : ∀ t : Fin cfg1.N, win1_4.index t 0 = t.val / 5 ∧ win1_4.index t 1 = 0 :=
  (by decide +kernel : ∀ t : Fin grid1.N, win1_4.index t 0 = t.val / 5 ∧ win1_4.index t 1 = 0)
theorem idx1_5 : ∀ t : Fin cfg1.N, win1_5.index t 0 = t.val / 5 ∧ win1_5.index t 1 = 0 :=
  (by decide +kernel : ∀ t : Fin grid1.N, win1_5.index t 0 = t.val / 5 ∧ win1_5.index t 1 = 0)
theorem off1 : ∀ t : Fin cfg1.N, k1_off1 (grid1.coords t) 0 = 2048 * (t.val % 5) ∧ k1_off1 (grid1.coords t) 1 = 0 :=
  (by decide +kernel : ∀ t : Fin grid1.N, k1_off1 (grid1.coords t) 0 = 2048 * (t.val % 5) ∧ k1_off1 (grid1.coords t) 1 = 0)
theorem coord1 : ∀ t : Fin cfg1.N, ((grid1.coords t) 0).val = t.val / 5 :=
  (by decide +kernel : ∀ t : Fin grid1.N, ((grid1.coords t) 0).val = t.val / 5)

abbrev ablk1 (t : Fin cfg1.N) : Vec Ideal S1024x2048 .bf16 := iblk1 V c 0 t
abbrev xblk1 (t : Fin cfg1.N) : Vec Ideal S10240x512 .bf16 := iblk1 V c 1 t
abbrev wblk1 (t : Fin cfg1.N) : Vec Ideal S512x512 .bf16 := iblk1 V c 2 t
abbrev bblk1 (t : Fin cfg1.N) : Vec Ideal S1x512 .f32 := iblk1 V c 3 t

theorem iblk1_0_apply (t : Fin cfg1.N) (p : Fin 1024) (s : Fin 2048) :
    ablk1 V c t (ix2 p s) = opA1 V c (ix2 (brow (t.val / 5) p) (bcol (t.val % 5) s)) := by
  have hN : t.val < 50 := lt_of_lt_of_eq t.isLt (show cfg1.N = 50 from N_1)
  unfold ablk1 iblk1
  rw [View.read_apply]
  show V c main_v44 _ = V c main_v44 _
  congr 1
  funext a
  apply Fin.ext
  match a with
  | ⟨0, _⟩ =>
    show win1_0.index t 0 * 1024 + 1 * p.val = (brow (t.val / 5) p).val
    rw [(idx1_0 t).1, brow_val _ (by omega)]; omega
  | ⟨1, _⟩ =>
    show win1_0.index t 1 * 2048 + 1 * s.val = (bcol (t.val % 5) s).val
    rw [(idx1_0 t).2, bcol_val _ (by omega)]; omega

theorem iblk1_1_eq (t : Fin cfg1.N) : xblk1 V c t = opX1 V c := by
  funext y
  unfold xblk1 iblk1
  rw [View.read_apply]
  show V c main_v55 _ = V c main_v55 _
  congr 1
  funext a
  apply Fin.ext
  match a with
  | ⟨0, _⟩ => show win1_1.index t 0 * 10240 + 1 * (y 0).val = (y 0).val; rw [(idx1_1 t).1]; omega
  | ⟨1, _⟩ => show win1_1.index t 1 * 512 + 1 * (y 1).val = (y 1).val; rw [(idx1_1 t).2]; omega
theorem iblk1_2_eq (t : Fin cfg1.N) : wblk1 V c t = opW1 V c := by
  funext y
  unfold wblk1 iblk1
  rw [View.read_apply]
  show V c main_v50 _ = V c main_v50 _
  congr 1
  funext a
  apply Fin.ext
  match a with
  | ⟨0, _⟩ => show win1_2.index t 0 * 512 + 1 * (y 0).val = (y 0).val; rw [(idx1_2 t).1]; omega
  | ⟨1, _⟩ => show win1_2.index t 1 * 512 + 1 * (y 1).val = (y 1).val; rw [(idx1_2 t).2]; omega
theorem iblk1_3_eq (t : Fin cfg1.N) : bblk1 V c t = opB1 V c := by
  funext y
  unfold bblk1 iblk1
  rw [View.read_apply]
  show V c main_v53 _ = V c main_v53 _
  congr 1
  funext a
  apply Fin.ext
  match a with
  | ⟨0, _⟩ => show win1_3.index t 0 * 1 + 1 * (y 0).val = (y 0).val; rw [(idx1_3 t).1]; omega
  | ⟨1, _⟩ => show win1_3.index t 1 * 512 + 1 * (y 1).val = (y 1).val; rw [(idx1_3 t).2]; omega

theorem xrows1_apply (t : Fin cfg1.N) (X : Vec Ideal S10240x512 .bf16) (s : Fin 2048) (q : Fin 512) :
    xrows1 (grid1.coords t) X (ix2 s q) = X (ix2 (bcol (t.val % 5) s) q) := by
  have hN : t.val < 50 := lt_of_lt_of_eq t.isLt (show cfg1.N = 50 from N_1)
  unfold xrows1 View.ld
  congr 1
  funext a
  apply Fin.ext
  match a with
  | ⟨0, _⟩ =>
    show k1_off1 (grid1.coords t) 0 + 1 * s.val = (bcol (t.val % 5) s).val
    rw [(off1 t).1, bcol_val _ (by omega)]; omega
  | ⟨1, _⟩ =>
    show k1_off1 (grid1.coords t) 1 + 1 * q.val = q.val
    rw [(off1 t).2]; omega

theorem pay1_1_apply (p : Fin 1024) (q : Fin 512) : k1_pay1 (F := Ideal) (ix2 p q) = 0 := by
  unfold k1_pay1
  simp only [shapeCast_self]
  exact Ideal.ofBits_zero_f32

theorem pay2_1_apply (v6 : Vec Ideal S2048x512 .bf16) (v8 : Vec Ideal S1024x512 .f32) (v9 : Vec Ideal S1024x2048 .bf16)
    (p : Fin 1024) (q : Fin 512) :
    k1_pay2 v6 v8 v9 (ix2 p q) = v8 (ix2 p q) + ∑ s : Fin 2048, v9 (ix2 p s) * v6 (ix2 s q) := by
  unfold k1_pay2
  simp only [shapeCast_self]
  exact congrArg (v8 (ix2 p q) + ·) (matmul_acc_apply v9 v6 p q)

theorem pay3_1_apply (i : grid1.Coords) (v19 : Vec Ideal S1024x512 .f32) (v21 : Vec Ideal S512x512 .bf16) (v24 : Vec Ideal S1x512 .f32)
    (p : Fin 1024) (q : Fin 512) :
    k1_pay3 i v19 v21 v24 (ix2 p q)
      = if 1024 * (i 0).val + p.val < 10000 then max ((∑ g : Fin 512, v19 (ix2 p g) * v21 (ix2 g q)) + v24 (ix2 0 q)) 0 else 0 := by
  have hi : (i 0).val < 10 := (i 0).isLt
  unfold k1_pay3
  simp only [shapeCast_self]
  show Scalar.select (cmpi .slt (addi (broadcast S1024x512 (Scalar.muli (BitVec.ofNat 32 (i 0).val) 1024#32)) (iota .tc S1024x512 32 [0] Facts₀.iota_S1024x512_d0_w32))
      (broadcast S1024x512 10000#32) (ix2 p q)) _ _ = _
  rw [rowMask_apply (i 0).val hi p q]
  by_cases h : 1024 * (i 0).val + p.val < 10000
  · rw [if_pos h, if_pos h, select_one]
    have hb := bias_apply v24 p q
    rw [shapeCast_self] at hb
    show max (matmul (F := Ideal) dot_S1024x512_S512x512_S1024x512_1_0_0_1_n_n none (truncf .bf16 v19 Facts₀.bitsLt_bf16_f32) v21 (constant (F := Ideal) S1024x512 .f32 0x00000000#32) (ix2 p q)
        + broadcastTo S1024x512 v24 Facts₀.broadcasts_S1x512_S1024x512 (ix2 p q)) (Ideal.ofBits .f32 0x00000000#32) = _
    rw [matmul_out_apply, hb, Ideal.ofBits_zero_f32]
    rfl
  · rw [if_neg h, if_neg h, select_zero]
    exact Ideal.ofBits_zero_f32

theorem pay4_1_apply (i : grid1.Coords) (v19 : Vec Ideal S1024x512 .f32) (v21 : Vec Ideal S512x512 .bf16) (v24 : Vec Ideal S1x512 .f32)
    (p : Fin 1024) (q : Fin 512) :
    k1_pay4 i v19 v21 v24 (ix2 p q)
      = if 1024 * (i 0).val + p.val < 10000 then max ((∑ g : Fin 512, v19 (ix2 p g) * v21 (ix2 g q)) + v24 (ix2 0 q)) 0 else 0 :=
  (show k1_pay4 i v19 v21 v24 (ix2 p q) = k1_pay3 i v19 v21 v24 (ix2 p q) from rfl).trans (pay3_1_apply i v19 v21 v24 p q)

theorem prod1_apply (t : Fin cfg1.N) (p : Fin 1024) (q : Fin 512) :
    (∑ s : Fin 2048, ablk1 V c t (ix2 p s) * xrows1 (grid1.coords t) (xblk1 V c t) (ix2 s q))
      = ∑ s : Fin 2048, opA1 V c (ix2 (brow (t.val / 5) p) (bcol (t.val % 5) s)) * opX1 V c (ix2 (bcol (t.val % 5) s) q) := by
  refine Finset.sum_congr rfl fun s _ => ?_
  rw [iblk1_0_apply, iblk1_1_eq, xrows1_apply]

/-- After column block `k` of a grid row the accumulator holds each matrix row against the activation over blocks `0 … k`. -/
theorem acc1_eq : ∀ (n : ℕ) (h : n < cfg1.N) (p : Fin 1024) (q : Fin 512),
    (outsAt1 V c n h).2.2 (ix2 p q) = partRow (opA1 V c) (opX1 V c) (brow (n / 5) p) q (n % 5)
  | 0, h, p, q => by
    have e := outsAt1_A V c ⟨0, h⟩ rfl (by show ¬(0 : ℕ) % 5 = 4; decide)
    rw [show outsAt1 V c 0 h = _ from e]
    dsimp only
    rw [sout1_A_eq, pay2_1_apply, pay1_1_apply, zero_add, prod1_apply, partRow_zero]
    rfl
  | n + 1, h, p, q => by
    have hN : n + 1 < 50 := lt_of_lt_of_eq h (show cfg1.N = 50 from N_1)
    have ih := acc1_eq n (Nat.lt_of_succ_lt h)
    by_cases h0 : (n + 1) % 5 = 0
    · have h1 : ¬(n + 1) % 5 = 4 := by omega
      have e := outsAt1_A V c ⟨n + 1, h⟩ h0 h1
      rw [show outsAt1 V c (n + 1) h = _ from e]
      dsimp only
      rw [sout1_A_eq, pay2_1_apply, pay1_1_apply, zero_add, prod1_apply]
      show _ = partRow (opA1 V c) (opX1 V c) (brow ((n + 1) / 5) p) q ((n + 1) % 5)
      rw [h0, partRow_zero]
    · have e5 : (n + 1) / 5 = n / 5 := by omega
      have em : (n + 1) % 5 = n % 5 + 1 := by omega
      have hk : n % 5 + 1 < 5 := by omega
      have hprev : ∀ (h' : (⟨n + 1, h⟩ : Fin cfg1.N).val - 1 < cfg1.N),
          (outsAt1 V c ((⟨n + 1, h⟩ : Fin cfg1.N).val - 1) h').2.2 (ix2 p q) = partRow (opA1 V c) (opX1 V c) (brow (n / 5) p) q (n % 5) :=
        fun h' => ih p q
      by_cases h1 : (n + 1) % 5 = 4
      · have e := outsAt1_C V c ⟨n + 1, h⟩ h0 h1
        rw [show outsAt1 V c (n + 1) h = _ from e]
        dsimp only
        rw [sout1_C_eq, pay2_1_apply, hprev, prod1_apply]
        show _ + (∑ s : Fin 2048, opA1 V c (ix2 (brow ((n + 1) / 5) p) (bcol ((n + 1) % 5) s)) * opX1 V c (ix2 (bcol ((n + 1) % 5) s) q))
          = partRow (opA1 V c) (opX1 V c) (brow ((n + 1) / 5) p) q ((n + 1) % 5)
        rw [e5, em, partRow_succ _ _ _ _ _ hk]
      · have e := outsAt1_B V c ⟨n + 1, h⟩ h0 h1
        rw [show outsAt1 V c (n + 1) h = _ from e]
        dsimp only
        rw [sout1_B_eq, pay2_1_apply, hprev, prod1_apply]
        show _ + (∑ s : Fin 2048, opA1 V c (ix2 (brow ((n + 1) / 5) p) (bcol ((n + 1) % 5) s)) * opX1 V c (ix2 (bcol ((n + 1) % 5) s) q))
          = partRow (opA1 V c) (opX1 V c) (brow ((n + 1) / 5) p) q ((n + 1) % 5)
        rw [e5, em, partRow_succ _ _ _ _ _ hk]

abbrev G1 : SPD.Idx → EReal :=
  layerK true (opA1 V c) (opX1 V c) (opW1 V c) (fun j => opB1 V c (ix2 0 (j 0)))

theorem epi1_eq (t : Fin cfg1.N) (h1 : t.val % 5 = 4) (p : Fin 1024) (q : Fin 512) :
    k1_pay3 (grid1.coords t) ((outsAt1 V c t.val t.isLt).2.2) (wblk1 V c t) (bblk1 V c t) (ix2 p q) = G1 V c (ix2 (brow (t.val / 5) p) q) := by
  have hN : t.val < 50 := lt_of_lt_of_eq t.isLt (show cfg1.N = 50 from N_1)
  have hR : (brow (t.val / 5) p).val = 1024 * (t.val / 5) + p.val := brow_val _ (by omega) p
  have hs : ∀ g : Fin 512, (outsAt1 V c t.val t.isLt).2.2 (ix2 p g) = ∑ s' : Fin 10240, opA1 V c (ix2 (brow (t.val / 5) p) s') * opX1 V c (ix2 s' g) := by
    intro g
    rw [acc1_eq V c t.val t.isLt p g, h1, partRow_full]
  rw [pay3_1_apply, coord1 t]
  show _ = (if (brow (t.val / 5) p).val < 10000 then
      act true ((∑ g : Fin 512, (∑ s : Fin 10240, opA1 V c (ix2 (brow (t.val / 5) p) s) * opX1 V c (ix2 s g)) * opW1 V c (ix2 g q)) + opB1 V c (ix2 0 q))
    else 0)
  rw [hR]
  by_cases hlt : 1024 * (t.val / 5) + p.val < 10000
  · rw [if_pos hlt, if_pos hlt]
    unfold act
    rw [if_pos rfl]
    show max ((∑ g : Fin 512, (outsAt1 V c t.val t.isLt).2.2 (ix2 p g) * wblk1 V c t (ix2 g q)) + bblk1 V c t (ix2 0 q)) 0
      = max ((∑ g : Fin 512, (∑ s : Fin 10240, opA1 V c (ix2 (brow (t.val / 5) p) s) * opX1 V c (ix2 s g)) * opW1 V c (ix2 g q)) + opB1 V c (ix2 0 q)) 0
    rw [iblk1_2_eq, iblk1_3_eq]
    simp only [hs]
  · rw [if_neg hlt, if_neg hlt]

theorem out1_4_eq (t : Fin cfg1.N) (h1 : t.val % 5 = 4) (p : Fin 1024) (q : Fin 512) :
    (outsAt1 V c t.val t.isLt).1 (ix2 p q) = G1 V c (ix2 (brow (t.val / 5) p) q) := by
  have h0 : ¬t.val % 5 = 0 := by omega
  have e := outsAt1_C V c t h0 h1
  have e2 : (outsAt1 V c t.val t.isLt).2.2 = _ := congrArg (fun x => x.2.2) e
  dsimp only at e2
  rw [sout1_C_eq] at e2
  rw [e]
  dsimp only
  rw [out1_C_4_eq, ← e2]
  exact epi1_eq V c t h1 p q

theorem out1_5_eq (t : Fin cfg1.N) (h1 : t.val % 5 = 4) (p : Fin 1024) (q : Fin 512) :
    (outsAt1 V c t.val t.isLt).2.1 (ix2 p q) = G1 V c (ix2 (brow (t.val / 5) p) q) := by
  have h0 : ¬t.val % 5 = 0 := by omega
  have e := outsAt1_C V c t h0 h1
  have e2 : (outsAt1 V c t.val t.isLt).2.2 = _ := congrArg (fun x => x.2.2) e
  dsimp only at e2
  rw [sout1_C_eq] at e2
  rw [e]
  dsimp only
  rw [out1_C_5_eq, ← e2]
  exact (show k1_pay4 (grid1.coords t) ((outsAt1 V c t.val t.isLt).2.2) (wblk1 V c t) (bblk1 V c t) (ix2 p q)
      = k1_pay3 (grid1.coords t) ((outsAt1 V c t.val t.isLt).2.2) (wblk1 V c t) (bblk1 V c t) (ix2 p q) from rfl).trans (epi1_eq V c t h1 p q)

theorem flushed1_4_eq (t : Fin cfg1.N) (hf : (cfg1.win 4).flush t = true) :
    (dat1 V c).flushed 4 t = ((cfg1.win 4).blk t).view.read (Elt Ideal) (G1 V c) := by
  have hN : t.val < 50 := lt_of_lt_of_eq t.isLt (show cfg1.N = 50 from N_1)
  have h1 : t.val % 5 = 4 := (flush1_4 t).mp hf
  show (cfg1.win 4).cut (grid1.coords t) ((dat1 V c).after 4 t) = _
  rw [after1_4]
  funext y
  show (outsAt1 V c t.val t.isLt).1 y = G1 V c (((cfg1.win 4).blk t).view.emb y)
  obtain ⟨p, q, rfl⟩ : ∃ (p : Fin 1024) (q : Fin 512), y = ix2 p q := ⟨y 0, y 1, eq_ix2 y⟩
  have hemb : ((cfg1.win 4).blk t).view.emb (ix2 p q) = ix2 (brow (t.val / 5) p) q := by
    funext a
    apply Fin.ext
    match a with
    | ⟨0, _⟩ =>
      show win1_4.index t 0 * 1024 + 1 * p.val = (brow (t.val / 5) p).val
      rw [(idx1_4 t).1, brow_val (t.val / 5) (by omega) p]; omega
    | ⟨1, _⟩ =>
      show win1_4.index t 1 * 512 + 1 * q.val = q.val
      rw [(idx1_4 t).2]; omega
  rw [hemb]
  exact out1_4_eq V c t h1 p q

theorem flushed1_5_eq (t : Fin cfg1.N) (hf : (cfg1.win 5).flush t = true) :
    (dat1 V c).flushed 5 t = ((cfg1.win 5).blk t).view.read (Elt Ideal) (G1 V c) := by
  have hN : t.val < 50 := lt_of_lt_of_eq t.isLt (show cfg1.N = 50 from N_1)
  have h1 : t.val % 5 = 4 := (flush1_5 t).mp hf
  show (cfg1.win 5).cut (grid1.coords t) ((dat1 V c).after 5 t) = _
  rw [after1_5]
  funext y
  show (outsAt1 V c t.val t.isLt).2.1 y = G1 V c (((cfg1.win 5).blk t).view.emb y)
  obtain ⟨p, q, rfl⟩ : ∃ (p : Fin 1024) (q : Fin 512), y = ix2 p q := ⟨y 0, y 1, eq_ix2 y⟩
  have hemb : ((cfg1.win 5).blk t).view.emb (ix2 p q) = ix2 (brow (t.val / 5) p) q := by
    funext a
    apply Fin.ext
    match a with
    | ⟨0, _⟩ =>
      show win1_5.index t 0 * 1024 + 1 * p.val = (brow (t.val / 5) p).val
      rw [(idx1_5 t).1, brow_val (t.val / 5) (by omega) p]; omega
    | ⟨1, _⟩ =>
      show win1_5.index t 1 * 512 + 1 * q.val = q.val
      rw [(idx1_5 t).2]; omega
  rw [hemb]
  exact out1_5_eq V c t h1 p q

theorem cover1_4 (i : SPD.Idx) : ∃ t : Fin cfg1.N, (cfg1.win 4).flush t = true ∧ i ∈ ((cfg1.win 4).blk t).view.set := by
  have hi0 : (i 0).val < 10240 := (i 0).isLt
  have hi1 : (i 1).val < 512 := (i 1).isLt
  have hlt : 5 * ((i 0).val / 1024) + 4 < cfg1.N := by rw [show cfg1.N = 50 from N_1]; omega
  refine ⟨⟨5 * ((i 0).val / 1024) + 4, hlt⟩, (flush1_4 _).mpr (by dsimp only; omega), ?_⟩
  show i ∈ ((View.whole main_v56_0).slice (win1_4.rect ⟨5 * ((i 0).val / 1024) + 4, hlt⟩)).set
  rw [View.set_slice_whole, Rect.mem_set_unit]
  intro a
  match a with
  | ⟨0, _⟩ =>
    show win1_4.index ⟨5 * ((i 0).val / 1024) + 4, hlt⟩ 0 * 1024 ≤ (i 0).val ∧ (i 0).val < win1_4.index ⟨5 * ((i 0).val / 1024) + 4, hlt⟩ 0 * 1024 + 1024
    rw [(idx1_4 ⟨5 * ((i 0).val / 1024) + 4, hlt⟩).1]; dsimp only; omega
  | ⟨1, _⟩ =>
    show win1_4.index ⟨5 * ((i 0).val / 1024) + 4, hlt⟩ 1 * 512 ≤ (i 1).val ∧ (i 1).val < win1_4.index ⟨5 * ((i 0).val / 1024) + 4, hlt⟩ 1 * 512 + 512
    rw [(idx1_4 ⟨5 * ((i 0).val / 1024) + 4, hlt⟩).2]; omega

theorem cover1_5 (i : SPD.Idx) : ∃ t : Fin cfg1.N, (cfg1.win 5).flush t = true ∧ i ∈ ((cfg1.win 5).blk t).view.set := by
  have hi0 : (i 0).val < 10240 := (i 0).isLt
  have hi1 : (i 1).val < 512 := (i 1).isLt
  have hlt : 5 * ((i 0).val / 1024) + 4 < cfg1.N := by rw [show cfg1.N = 50 from N_1]; omega
  refine ⟨⟨5 * ((i 0).val / 1024) + 4, hlt⟩, (flush1_5 _).mpr (by dsimp only; omega), ?_⟩
  show i ∈ ((View.whole main_v56_1).slice (win1_5.rect ⟨5 * ((i 0).val / 1024) + 4, hlt⟩)).set
  rw [View.set_slice_whole, Rect.mem_set_unit]
  intro a
  match a with
  | ⟨0, _⟩ =>
    show win1_5.index ⟨5 * ((i 0).val / 1024) + 4, hlt⟩ 0 * 1024 ≤ (i 0).val ∧ (i 0).val < win1_5.index ⟨5 * ((i 0).val / 1024) + 4, hlt⟩ 0 * 1024 + 1024
    rw [(idx1_5 ⟨5 * ((i 0).val / 1024) + 4, hlt⟩).1]; dsimp only; omega
  | ⟨1, _⟩ =>
    show win1_5.index ⟨5 * ((i 0).val / 1024) + 4, hlt⟩ 1 * 512 ≤ (i 1).val ∧ (i 1).val < win1_5.index ⟨5 * ((i 0).val / 1024) + 4, hlt⟩ 1 * 512 + 512
    rw [(idx1_5 ⟨5 * ((i 0).val / 1024) + 4, hlt⟩).2]; omega

theorem final1_4 : (dat1 V c).arrAt 4 cfg1.N = G1 V c :=
  (dat1 V c).arrAt_eq_of_cover 4 (G1 V c) (fun t hf => flushed1_4_eq V c t hf) cover1_4

theorem final1_5 : (dat1 V c).arrAt 5 cfg1.N = G1 V c :=
  (dat1 V c).arrAt_eq_of_cover 5 (G1 V c) (fun t hf => flushed1_5_eq V c t hf) cover1_5

end Cert.KernelIdeal.Fr

end
-- ==== Proof.R2Pieces.lean ====
import proofs.«413367_j60610578482006_3_alg».proof.Proof.R2Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_2 : (![0, 0] : Fin 2 → Nat) = fun _ => 0 := funext fun a => by fin_cases a <;> rfl

abbrev xrows2 (i : grid2.Coords) (x1 : Vec F S10240x512 .bf16) : Vec F S2048x512 .bf16 :=
  View.ld x1 (Rect.unit (s := S10240x512) (k2_off1 i) S2048x512.size (k2_off1_inb i))

section
variable (c : Dev nD) (o : Ops2)

section
variable (hc0 : ¬cond2_0 o.i) (hc1 : ¬cond2_1 o.i) (x0 : Vec F S1024x2048 .bf16) (x1 : Vec F S10240x512 .bf16) (x2 : Vec F S512x512 .bf16) (x3 : Vec F S1x512 .f32) (x4 : Vec F S512x512 .bf16) (x5 : Vec F S1x512 .f32) (xs0 : Vec F S1024x512 .f32)

theorem sout2_B_eq :
    sout2_B c o hc0 hc1 x0 x1 x2 x3 x4 x5 xs0 = k2_pay2 (xrows2 o.i x1) xs0 x0 := by
  unfold sout2_B
  rw [View.read_writes_eq_canon _ _ _ (scover2_B c o hc0 hc1 x0 x1 x2 x3 x4 x5 xs0)]
  unfold kernelRun2_B
  dsimp only
  rw [View.canon_unit_zero hz2_2]
  simp only [View.readAt_eq_ld, o.harg2.read_unread, o.harg3.read_unread, o.harg10.read_unread,
    View.ld_unit_zero (S := S1024x512) hz2_2, View.ld_unit_zero (S := S1024x2048) hz2_2]
  try rfl

end

section
variable (hc0 : cond2_0 o.i) (hc1 : ¬cond2_1 o.i) (x0 : Vec F S1024x2048 .bf16) (x1 : Vec F S10240x512 .bf16) (x2 : Vec F S512x512 .bf16) (x3 : Vec F S1x512 .f32) (x4 : Vec F S512x512 .bf16) (x5 : Vec F S1x512 .f32)

theorem sout2_A_eq :
    sout2_A c o hc0 hc1 x0 x1 x2 x3 x4 x5 = k2_pay2 (xrows2 o.i x1) (k2_pay1 (F := F)) x0 := by
  unfold sout2_A
  rw [View.read_writes_eq_canon _ _ _ (scover2_A c o hc0 hc1 x0 x1 x2 x3 x4 x5)]
  unfold kernelRun2_A
  dsimp only
  sl_unfold_words
  rw [View.canon_cons_unit_zero (S := S1024x512) hz2_2, View.readCov_unit_zero (S := S1024x512) _ hz2_2]
  simp only [View.readAt_eq_ld, o.harg2.read_unread, o.harg3.read_unread,
    View.ld_unit_zero (S := S1024x512) hz2_2, View.ld_unit_zero (S := S1024x2048) hz2_2]
  try rfl

end

section
variable (hc0 : ¬cond2_0 o.i) (hc1 : cond2_1 o.i) (x0 : Vec F S1024x2048 .bf16) (x1 : Vec F S10240x512 .bf16) (x2 : Vec F S512x512 .bf16) (x3 : Vec F S1x512 .f32) (x4 : Vec F S512x512 .bf16) (x5 : Vec F S1x512 .f32) (xs0 : Vec F S1024x512 .f32)

theorem sout2_C_eq :
    sout2_C c o hc0 hc1 x0 x1 x2 x3 x4 x5 xs0 = k2_pay2 (xrows2 o.i x1) xs0 x0 := by
  unfold sout2_C
  rw [View.read_writes_eq_canon _ _ _ (scover2_C c o hc0 hc1 x0 x1 x2 x3 x4 x5 xs0)]
  unfold kernelRun2_C
  dsimp only
  sl_unfold_words
  rw [View.canon_unit_zero hz2_2]
  simp only [View.readAt_eq_ld, o.harg2.read_unread, o.harg3.read_unread, o.harg10.read_unread,
    View.ld_unit_zero (S := S1024x512) hz2_2, View.ld_unit_zero (S := S1024x2048) hz2_2]
  try rfl

theorem out2_C_6_eq :
    out2_C_6 c o hc0 hc1 x0 x1 x2 x3 x4 x5 xs0 = k2_pay5 o.i (k2_pay2 (xrows2 o.i x1) xs0 x0) x2 x3 := by
  unfold out2_C_6
  rw [View.read_writes_eq_canon _ _ _ (cover2_C_6 c o hc0 hc1 x0 x1 x2 x3 x4 x5 xs0)]
  unfold kernelRun2_C
  dsimp only
  sl_unfold_words
  rw [View.canon_unit_zero hz2_2, View.readCov_unit_zero (S := S1024x512) _ hz2_2]
  simp only [View.readAt_eq_ld, o.harg2.read_unread, o.harg3.read_unread, o.harg4.read_unread, o.harg5.read_unread, o.harg10.read_unread,
    View.ld_unit_zero (S := S1024x512) hz2_2, View.ld_unit_zero (S := S1024x2048) hz2_2,
    View.ld_unit_zero (S := S512x512) hz2_2, View.ld_unit_zero (S := S1x512) hz2_2]
  try rfl

theorem out2_C_7_eq :
    out2_C_7 c o hc0 hc1 x0 x1 x2 x3 x4 x5 xs0 = k2_pay6 o.i (k2_pay2 (xrows2 o.i x1) xs0 x0) x4 x5 := by
  unfold out2_C_7
  rw [View.read_writes_eq_canon _ _ _ (cover2_C_7 c o hc0 hc1 x0 x1 x2 x3 x4 x5 xs0)]
  unfold kernelRun2_C
  dsimp only
  sl_unfold_words
  rw [View.canon_unit_zero hz2_2, View.readCov_unit_zero (S := S1024x512) _ hz2_2]
  simp only [View.readAt_eq_ld, o.harg2.read_unread, o.harg3.read_unread, o.harg6.read_unread, o.harg7.read_unread, o.harg10.read_unread,
    View.ld_unit_zero (S := S1024x512) hz2_2, View.ld_unit_zero (S := S1024x2048) hz2_2,
    View.ld_unit_zero (S := S512x512) hz2_2, View.ld_unit_zero (S := S1x512) hz2_2]
  try rfl

end

end

end Cert.KernelIdeal.Fr

end
-- ==== Proof.R2Value.lean ====
import proofs.«413367_j60610578482006_3_alg».proof.Proof.R2Pieces
import proofs.«413367_j60610578482006_3_alg».proof.Proof.KBlocks

set_option maxRecDepth 16384

noncomputable section

namespace Cert.KernelIdeal.Fr

open Cert.KernelIdeal Cert.KernelIdeal.Gen Cert.GraphConv Cert.KernelIdeal.KMath
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b)) (c : Dev nD)

abbrev opA2 : SPP.Idx → EReal := V c main_v44
abbrev opX2 : SPD.Idx → EReal := V c main_v56_1
abbrev opW2a : SDD.Idx → EReal := V c main_v50
abbrev opB2a : (⟨2, ![1, 512]⟩ : Shape).Idx → EReal := V c main_v53
abbrev opW2b : SDD.Idx → EReal := V c main_v51
abbrev opB2b : (⟨2, ![1, 512]⟩ : Shape).Idx → EReal := V c main_v54

theorem idx2_0 : ∀ t : Fin cfg2.N, win2_0.index t 0 = t.val / 5 ∧ win2_0.index t 1 = t.val % 5 :=
  (by decide +kernel : ∀ t : Fin grid2.N, win2_0.index t 0 = t.val / 5 ∧ win2_0.index t 1 = t.val % 5)
theorem idx2_1 : ∀ t : Fin cfg2.N, win2_1.index t 0 = 0 ∧ win2_1.index t 1 = 0 :=
  (by decide +kernel : ∀ t : Fin grid2.N, win2_1.index t 0 = 0 ∧ win2_1.index t 1 = 0)
theorem idx2_2 : ∀ t : Fin cfg2.N, win2_2.index t 0 = 0 ∧ win2_2.index t 1 = 0 :=
  (by decide +kernel : ∀ t : Fin grid2.N, win2_2.index t 0 = 0 ∧ win2_2.index t 1 = 0)
theorem idx2_3 : ∀ t : Fin cfg2.N, win2_3.index t 0 = 0 ∧ win2_3.index t 1 = 0 :=
  (by decide +kernel : ∀ t : Fin grid2.N, win2_3.index t 0 = 0 ∧ win2_3.index t 1 = 0)
theorem idx2_4 : ∀ t : Fin cfg2.N, win2_4.index t 0 = 0 ∧ win2_4.index t 1 = 0 :=
  (by decide +kernel : ∀ t : Fin grid2.N, win2_4.index t 0 = 0 ∧ win2_4.index t 1 = 0)
theorem idx2_5 : ∀ t : Fin cfg2.N, win2_5.index t 0 = 0 ∧ win2_5.index t 1 = 0 :=
  (by decide +kernel : ∀ t : Fin grid2.N, win2_5.index t 0 = 0 ∧ win2_5.index t 1 = 0)
theorem idx2_6 : ∀ t : Fin cfg2.N, win2_6.index t 0 = t.val / 5 ∧ win2_6.index t 1 = 0 :=
  (by decide +kernel : ∀ t : Fin grid2.N, win2_6.index t 0 = t.val / 5 ∧ win2_6.index t 1 = 0)
theorem idx2_7 : ∀ t : Fin cfg2.N, win2_7.index t 0 = t.val / 5 ∧ win2_7.index t 1 = 0 :=
  (by decide +kernel : ∀ t : Fin grid2.N, win2_7.index t 0 = t.val / 5 ∧ win2_7.index t 1 = 0)
theorem off2 : ∀ t : Fin cfg2.N, k2_off1 (grid2.coords t) 0 = 2048 * (t.val % 5) ∧ k2_off1 (grid2.coords t) 1 = 0 :=
  (by decide +kernel : ∀ t : Fin grid2.N, k2_off1 (grid2.coords t) 0 = 2048 * (t.val % 5) ∧ k2_off1 (grid2.coords t) 1 = 0)
theorem coord2 : ∀ t : Fin cfg2.N, ((grid2.coords t) 0).val = t.val / 5 :=
  (by decide +kernel : ∀ t : Fin grid2.N, ((grid2.coords t) 0).val = t.val / 5)

abbrev ablk2 (t : Fin cfg2.N) : Vec Ideal S1024x2048 .bf16 := iblk2 V c 0 t
abbrev xblk2 (t : Fin cfg2.N) : Vec Ideal S10240x512 .bf16 := iblk2 V c 1 t
abbrev wablk2 (t : Fin cfg2.N) : Vec Ideal S512x512 .bf16 := iblk2 V c 2 t
abbrev bablk2 (t : Fin cfg2.N) : Vec Ideal S1x512 .f32 := iblk2 V c 3 t
abbrev wbblk2 (t : Fin cfg2.N) : Vec Ideal S512x512 .bf16 := iblk2 V c 4 t
abbrev bbblk2 (t : Fin cfg2.N) : Vec Ideal S1x512 .f32 := iblk2 V c 5 t

theorem iblk2_0_apply (t : Fin cfg2.N) (p : Fin 1024) (s : Fin 2048) :
    ablk2 V c t (ix2 p s) = opA2 V c (ix2 (brow (t.val / 5) p) (bcol (t.val % 5) s)) := by
  have hN : t.val < 50 := lt_of_lt_of_eq t.isLt (show cfg2.N = 50 from N_2)
  unfold ablk2 iblk2
  rw [View.read_apply]
  show V c main_v44 _ = V c main_v44 _
  congr 1
  funext a
  apply Fin.ext
  match a with
  | ⟨0, _⟩ =>
    show win2_0.index t 0 * 1024 + 1 * p.val = (brow (t.val / 5) p).val
    rw [(idx2_0 t).1, brow_val _ (by omega)]; omega
  | ⟨1, _⟩ =>
    show win2_0.index t 1 * 2048 + 1 * s.val = (bcol (t.val % 5) s).val
    rw [(idx2_0 t).2, bcol_val _ (by omega)]; omega

theorem iblk2_1_eq (t : Fin cfg2.N) : xblk2 V c t = opX2 V c := by
  funext y
  unfold xblk2 iblk2
  rw [View.read_apply]
  show V c main_v56_1 _ = V c main_v56_1 _
  congr 1
  funext a
  apply Fin.ext
  match a with
  | ⟨0, _⟩ => show win2_1.index t 0 * 10240 + 1 * (y 0).val = (y 0).val; rw [(idx2_1 t).1]; omega
  | ⟨1, _⟩ => show win2_1.index t 1 * 512 + 1 * (y 1).val = (y 1).val; rw [(idx2_1 t).2]; omega
theorem iblk2_2_eq (t : Fin cfg2.N) : wablk2 V c t = opW2a V c := by
  funext y
  unfold wablk2 iblk2
  rw [View.read_apply]
  show V c main_v50 _ = V c main_v50 _
  congr 1
  funext a
  apply Fin.ext
  match a with
  | ⟨0, _⟩ => show win2_2.index t 0 * 512 + 1 * (y 0).val = (y 0).val; rw [(idx2_2 t).1]; omega
  | ⟨1, _⟩ => show win2_2.index t 1 * 512 + 1 * (y 1).val = (y 1).val; rw [(idx2_2 t).2]; omega
theorem iblk2_3_eq (t : Fin cfg2.N) : bablk2 V c t = opB2a V c := by
  funext y
  unfold bablk2 iblk2
  rw [View.read_apply]
  show V c main_v53 _ = V c main_v53 _
  congr 1
  funext a
  apply Fin.ext
  match a with
  | ⟨0, _⟩ => show win2_3.index t 0 * 1 + 1 * (y 0).val = (y 0).val; rw [(idx2_3 t).1]; omega
  | ⟨1, _⟩ => show win2_3.index t 1 * 512 + 1 * (y 1).val = (y 1).val; rw [(idx2_3 t).2]; omega
theorem iblk2_4_eq (t : Fin cfg2.N) : wbblk2 V c t = opW2b V c := by
  funext y
  unfold wbblk2 iblk2
  rw [View.read_apply]
  show V c main_v51 _ = V c main_v51 _
  congr 1
  funext a
  apply Fin.ext
  match a with
  | ⟨0, _⟩ => show win2_4.index t 0 * 512 + 1 * (y 0).val = (y 0).val; rw [(idx2_4 t).1]; omega
  | ⟨1, _⟩ => show win2_4.index t 1 * 512 + 1 * (y 1).val = (y 1).val; rw [(idx2_4 t).2]; omega
theorem iblk2_5_eq (t : Fin cfg2.N) : bbblk2 V c t = opB2b V c := by
  funext y
  unfold bbblk2 iblk2
  rw [View.read_apply]
  show V c main_v54 _ = V c main_v54 _
  congr 1
  funext a
  apply Fin.ext
  match a with
  | ⟨0, _⟩ => show win2_5.index t 0 * 1 + 1 * (y 0).val = (y 0).val; rw [(idx2_5 t).1]; omega
  | ⟨1, _⟩ => show win2_5.index t 1 * 512 + 1 * (y 1).val = (y 1).val; rw [(idx2_5 t).2]; omega

theorem xrows2_apply (t : Fin cfg2.N) (X : Vec Ideal S10240x512 .bf16) (s : Fin 2048) (q : Fin 512) :
    xrows2 (grid2.coords t) X (ix2 s q) = X (ix2 (bcol (t.val % 5) s) q) := by
  have hN : t.val < 50 := lt_of_lt_of_eq t.isLt (show cfg2.N = 50 from N_2)
  unfold xrows2 View.ld
  congr 1
  funext a
  apply Fin.ext
  match a with
  | ⟨0, _⟩ =>
    show k2_off1 (grid2.coords t) 0 + 1 * s.val = (bcol (t.val % 5) s).val
    rw [(off2 t).1, bcol_val _ (by omega)]; omega
  | ⟨1, _⟩ =>
    show k2_off1 (grid2.coords t) 1 + 1 * q.val = q.val
    rw [(off2 t).2]; omega

theorem pay1_2_apply (p : Fin 1024) (q : Fin 512) : k2_pay1 (F := Ideal) (ix2 p q) = 0 := by
  unfold k2_pay1
  simp only [shapeCast_self]
  exact Ideal.ofBits_zero_f32

theorem pay2_2_apply (v6 : Vec Ideal S2048x512 .bf16) (v8 : Vec Ideal S1024x512 .f32) (v9 : Vec Ideal S1024x2048 .bf16)
    (p : Fin 1024) (q : Fin 512) :
    k2_pay2 v6 v8 v9 (ix2 p q) = v8 (ix2 p q) + ∑ s : Fin 2048, v9 (ix2 p s) * v6 (ix2 s q) := by
  unfold k2_pay2
  simp only [shapeCast_self]
  exact congrArg (v8 (ix2 p q) + ·) (matmul_acc_apply v9 v6 p q)

theorem pay5_2_apply (i : grid2.Coords) (v19 : Vec Ideal S1024x512 .f32) (v27 : Vec Ideal S512x512 .bf16) (v30 : Vec Ideal S1x512 .f32)
    (p : Fin 1024) (q : Fin 512) :
    k2_pay5 i v19 v27 v30 (ix2 p q)
      = if 1024 * (i 0).val + p.val < 10000 then max ((∑ g : Fin 512, v19 (ix2 p g) * v27 (ix2 g q)) + v30 (ix2 0 q)) 0 else 0 := by
  have hi : (i 0).val < 10 := (i 0).isLt
  unfold k2_pay5 k2_pay4 k2_pay3
  simp only [shapeCast_self]
  show Scalar.select (cmpi .slt (addi (broadcast S1024x512 (Scalar.muli (BitVec.ofNat 32 (i 0).val) 1024#32)) (iota .tc S1024x512 32 [0] Facts₀.iota_S1024x512_d0_w32))
      (broadcast S1024x512 10000#32) (ix2 p q)) _ _ = _
  rw [rowMask_apply (i 0).val hi p q]
  by_cases h : 1024 * (i 0).val + p.val < 10000
  · rw [if_pos h, if_pos h, select_one]
    have hb := bias_apply v30 p q
    rw [shapeCast_self] at hb
    show max (matmul (F := Ideal) dot_S1024x512_S512x512_S1024x512_1_0_0_1_n_n none (truncf .bf16 v19 Facts₀.bitsLt_bf16_f32) v27 (constant (F := Ideal) S1024x512 .f32 0x00000000#32) (ix2 p q)
        + broadcastTo S1024x512 v30 Facts₀.broadcasts_S1x512_S1024x512 (ix2 p q)) (Ideal.ofBits .f32 0x00000000#32) = _
    rw [matmul_out_apply, hb, Ideal.ofBits_zero_f32]
    rfl
  · rw [if_neg h, if_neg h, select_zero]
    exact Ideal.ofBits_zero_f32

theorem pay6_2_apply (i : grid2.Coords) (v19 : Vec Ideal S1024x512 .f32) (v39 : Vec Ideal S512x512 .bf16) (v42 : Vec Ideal S1x512 .f32)
    (p : Fin 1024) (q : Fin 512) :
    k2_pay6 i v19 v39 v42 (ix2 p q)
      = if 1024 * (i 0).val + p.val < 10000 then (∑ g : Fin 512, v19 (ix2 p g) * v39 (ix2 g q)) + v42 (ix2 0 q) else 0 := by
  have hi : (i 0).val < 10 := (i 0).isLt
  unfold k2_pay6 k2_pay4 k2_pay3
  simp only [shapeCast_self]
  show Scalar.select (cmpi .slt (addi (broadcast S1024x512 (Scalar.muli (BitVec.ofNat 32 (i 0).val) 1024#32)) (iota .tc S1024x512 32 [0] Facts₀.iota_S1024x512_d0_w32))
      (broadcast S1024x512 10000#32) (ix2 p q)) _ _ = _
  rw [rowMask_apply (i 0).val hi p q]
  by_cases h : 1024 * (i 0).val + p.val < 10000
  · rw [if_pos h, if_pos h, select_one]
    have hb := bias_apply v42 p q
    rw [shapeCast_self] at hb
    show matmul (F := Ideal) dot_S1024x512_S512x512_S1024x512_1_0_0_1_n_n none (truncf .bf16 v19 Facts₀.bitsLt_bf16_f32) v39 (constant (F := Ideal) S1024x512 .f32 0x00000000#32) (ix2 p q)
        + broadcastTo S1024x512 v42 Facts₀.broadcasts_S1x512_S1024x512 (ix2 p q) = _
    rw [matmul_out_apply, hb]
    rfl
  · rw [if_neg h, if_neg h, select_zero]
    exact Ideal.ofBits_zero_f32

theorem prod2_apply (t : Fin cfg2.N) (p : Fin 1024) (q : Fin 512) :
    (∑ s : Fin 2048, ablk2 V c t (ix2 p s) * xrows2 (grid2.coords t) (xblk2 V c t) (ix2 s q))
      = ∑ s : Fin 2048, opA2 V c (ix2 (brow (t.val / 5) p) (bcol (t.val % 5) s)) * opX2 V c (ix2 (bcol (t.val % 5) s) q) := by
  refine Finset.sum_congr rfl fun s _ => ?_
  rw [iblk2_0_apply, iblk2_1_eq, xrows2_apply]

/-- After column block `k` of a grid row the accumulator holds each matrix row against the activation over blocks `0 … k`. -/
theorem acc2_eq : ∀ (n : ℕ) (h : n < cfg2.N) (p : Fin 1024) (q : Fin 512),
    (outsAt2 V c n h).2.2 (ix2 p q) = partRow (opA2 V c) (opX2 V c) (brow (n / 5) p) q (n % 5)
  | 0, h, p, q => by
    have e := outsAt2_A V c ⟨0, h⟩ rfl (by show ¬(0 : ℕ) % 5 = 4; decide)
    rw [show outsAt2 V c 0 h = _ from e]
    dsimp only
    rw [sout2_A_eq, pay2_2_apply, pay1_2_apply, zero_add, prod2_apply, partRow_zero]
    rfl
  | n + 1, h, p, q => by
    have hN : n + 1 < 50 := lt_of_lt_of_eq h (show cfg2.N = 50 from N_2)
    have ih := acc2_eq n (Nat.lt_of_succ_lt h)
    by_cases h0 : (n + 1) % 5 = 0
    · have h1 : ¬(n + 1) % 5 = 4 := by omega
      have e := outsAt2_A V c ⟨n + 1, h⟩ h0 h1
      rw [show outsAt2 V c (n + 1) h = _ from e]
      dsimp only
      rw [sout2_A_eq, pay2_2_apply, pay1_2_apply, zero_add, prod2_apply]
      show _ = partRow (opA2 V c) (opX2 V c) (brow ((n + 1) / 5) p) q ((n + 1) % 5)
      rw [h0, partRow_zero]
    · have e5 : (n + 1) / 5 = n / 5 := by omega
      have em : (n + 1) % 5 = n % 5 + 1 := by omega
      have hk : n % 5 + 1 < 5 := by omega
      have hprev : ∀ (h' : (⟨n + 1, h⟩ : Fin cfg2.N).val - 1 < cfg2.N),
          (outsAt2 V c ((⟨n + 1, h⟩ : Fin cfg2.N).val - 1) h').2.2 (ix2 p q) = partRow (opA2 V c) (opX2 V c) (brow (n / 5) p) q (n % 5) :=
        fun h' => ih p q
      by_cases h1 : (n + 1) % 5 = 4
      · have e := outsAt2_C V c ⟨n + 1, h⟩ h0 h1
        rw [show outsAt2 V c (n + 1) h = _ from e]
        dsimp only
        rw [sout2_C_eq, pay2_2_apply, hprev, prod2_apply]
        show _ + (∑ s : Fin 2048, opA2 V c (ix2 (brow ((n + 1) / 5) p) (bcol ((n + 1) % 5) s)) * opX2 V c (ix2 (bcol ((n + 1) % 5) s) q))
          = partRow (opA2 V c) (opX2 V c) (brow ((n + 1) / 5) p) q ((n + 1) % 5)
        rw [e5, em, partRow_succ _ _ _ _ _ hk]
      · have e := outsAt2_B V c ⟨n + 1, h⟩ h0 h1
        rw [show outsAt2 V c (n + 1) h = _ from e]
        dsimp only
        rw [sout2_B_eq, pay2_2_apply, hprev, prod2_apply]
        show _ + (∑ s : Fin 2048, opA2 V c (ix2 (brow ((n + 1) / 5) p) (bcol ((n + 1) % 5) s)) * opX2 V c (ix2 (bcol ((n + 1) % 5) s) q))
          = partRow (opA2 V c) (opX2 V c) (brow ((n + 1) / 5) p) q ((n + 1) % 5)
        rw [e5, em, partRow_succ _ _ _ _ _ hk]

abbrev G2a : SPD.Idx → EReal :=
  layerK true (opA2 V c) (opX2 V c) (opW2a V c) (fun j => opB2a V c (ix2 0 (j 0)))

abbrev G2b : SPD.Idx → EReal :=
  layerK false (opA2 V c) (opX2 V c) (opW2b V c) (fun j => opB2b V c (ix2 0 (j 0)))

theorem out2_6_eq (t : Fin cfg2.N) (h1 : t.val % 5 = 4) (p : Fin 1024) (q : Fin 512) :
    (outsAt2 V c t.val t.isLt).1 (ix2 p q) = G2a V c (ix2 (brow (t.val / 5) p) q) := by
  have hN : t.val < 50 := lt_of_lt_of_eq t.isLt (show cfg2.N = 50 from N_2)
  have h0 : ¬t.val % 5 = 0 := by omega
  have hR : (brow (t.val / 5) p).val = 1024 * (t.val / 5) + p.val := brow_val _ (by omega) p
  have hs : ∀ g : Fin 512, (outsAt2 V c t.val t.isLt).2.2 (ix2 p g) = ∑ s' : Fin 10240, opA2 V c (ix2 (brow (t.val / 5) p) s') * opX2 V c (ix2 s' g) := by
    intro g
    rw [acc2_eq V c t.val t.isLt p g, h1, partRow_full]
  have e := outsAt2_C V c t h0 h1
  have e2 : (outsAt2 V c t.val t.isLt).2.2 = _ := congrArg Prod.snd (congrArg Prod.snd e)
  dsimp only at e2
  rw [sout2_C_eq] at e2
  rw [e]
  dsimp only
  rw [out2_C_6_eq, pay5_2_apply, coord2 t, ← e2]
  show _ = (if (brow (t.val / 5) p).val < 10000 then
      act true ((∑ g : Fin 512, (∑ s : Fin 10240, opA2 V c (ix2 (brow (t.val / 5) p) s) * opX2 V c (ix2 s g)) * opW2a V c (ix2 g q)) + opB2a V c (ix2 0 q))
    else 0)
  rw [hR]
  by_cases hlt : 1024 * (t.val / 5) + p.val < 10000
  · rw [if_pos hlt, if_pos hlt]
    unfold act
    rw [if_pos rfl]
    show max ((∑ g : Fin 512, (outsAt2 V c t.val t.isLt).2.2 (ix2 p g) * wablk2 V c t (ix2 g q)) + bablk2 V c t (ix2 0 q)) 0
      = max ((∑ g : Fin 512, (∑ s : Fin 10240, opA2 V c (ix2 (brow (t.val / 5) p) s) * opX2 V c (ix2 s g)) * opW2a V c (ix2 g q)) + opB2a V c (ix2 0 q)) 0
    rw [iblk2_2_eq, iblk2_3_eq]
    simp only [hs]
  · rw [if_neg hlt, if_neg hlt]

theorem out2_7_eq (t : Fin cfg2.N) (h1 : t.val % 5 = 4) (p : Fin 1024) (q : Fin 512) :
    (outsAt2 V c t.val t.isLt).2.1 (ix2 p q) = G2b V c (ix2 (brow (t.val / 5) p) q) := by
  have hN : t.val < 50 := lt_of_lt_of_eq t.isLt (show cfg2.N = 50 from N_2)
  have h0 : ¬t.val % 5 = 0 := by omega
  have hR : (brow (t.val / 5) p).val = 1024 * (t.val / 5) + p.val := brow_val _ (by omega) p
  have hs : ∀ g : Fin 512, (outsAt2 V c t.val t.isLt).2.2 (ix2 p g) = ∑ s' : Fin 10240, opA2 V c (ix2 (brow (t.val / 5) p) s') * opX2 V c (ix2 s' g) := by
    intro g
    rw [acc2_eq V c t.val t.isLt p g, h1, partRow_full]
  have e := outsAt2_C V c t h0 h1
  have e2 : (outsAt2 V c t.val t.isLt).2.2 = _ := congrArg Prod.snd (congrArg Prod.snd e)
  dsimp only at e2
  rw [sout2_C_eq] at e2
  rw [e]
  dsimp only
  rw [out2_C_7_eq, pay6_2_apply, coord2 t, ← e2]
  show _ = (if (brow (t.val / 5) p).val < 10000 then
      act false ((∑ g : Fin 512, (∑ s : Fin 10240, opA2 V c (ix2 (brow (t.val / 5) p) s) * opX2 V c (ix2 s g)) * opW2b V c (ix2 g q)) + opB2b V c (ix2 0 q))
    else 0)
  rw [hR]
  by_cases hlt : 1024 * (t.val / 5) + p.val < 10000
  · rw [if_pos hlt, if_pos hlt]
    unfold act
    rw [if_neg (by decide : ¬(false = true))]
    show (∑ g : Fin 512, (outsAt2 V c t.val t.isLt).2.2 (ix2 p g) * wbblk2 V c t (ix2 g q)) + bbblk2 V c t (ix2 0 q)
      = (∑ g : Fin 512, (∑ s : Fin 10240, opA2 V c (ix2 (brow (t.val / 5) p) s) * opX2 V c (ix2 s g)) * opW2b V c (ix2 g q)) + opB2b V c (ix2 0 q)
    rw [iblk2_4_eq, iblk2_5_eq]
    simp only [hs]
  · rw [if_neg hlt, if_neg hlt]

theorem flushed2_6_eq (t : Fin cfg2.N) (hf : (cfg2.win 6).flush t = true) :
    (dat2 V c).flushed 6 t = ((cfg2.win 6).blk t).view.read (Elt Ideal) (G2a V c) := by
  have hN : t.val < 50 := lt_of_lt_of_eq t.isLt (show cfg2.N = 50 from N_2)
  have h1 : t.val % 5 = 4 := (flush2_6 t).mp hf
  show (cfg2.win 6).cut (grid2.coords t) ((dat2 V c).after 6 t) = _
  rw [after2_6]
  funext y
  show (outsAt2 V c t.val t.isLt).1 y = G2a V c (((cfg2.win 6).blk t).view.emb y)
  obtain ⟨p, q, rfl⟩ : ∃ (p : Fin 1024) (q : Fin 512), y = ix2 p q := ⟨y 0, y 1, eq_ix2 y⟩
  have hemb : ((cfg2.win 6).blk t).view.emb (ix2 p q) = ix2 (brow (t.val / 5) p) q := by
    funext a
    apply Fin.ext
    match a with
    | ⟨0, _⟩ =>
      show win2_6.index t 0 * 1024 + 1 * p.val = (brow (t.val / 5) p).val
      rw [(idx2_6 t).1, brow_val (t.val / 5) (by omega) p]; omega
    | ⟨1, _⟩ =>
      show win2_6.index t 1 * 512 + 1 * q.val = q.val
      rw [(idx2_6 t).2]; omega
  rw [hemb]
  exact out2_6_eq V c t h1 p q

theorem flushed2_7_eq (t : Fin cfg2.N) (hf : (cfg2.win 7).flush t = true) :
    (dat2 V c).flushed 7 t = ((cfg2.win 7).blk t).view.read (Elt Ideal) (G2b V c) := by
  have hN : t.val < 50 := lt_of_lt_of_eq t.isLt (show cfg2.N = 50 from N_2)
  have h1 : t.val % 5 = 4 := (flush2_7 t).mp hf
  show (cfg2.win 7).cut (grid2.coords t) ((dat2 V c).after 7 t) = _
  rw [after2_7]
  funext y
  show (outsAt2 V c t.val t.isLt).2.1 y = G2b V c (((cfg2.win 7).blk t).view.emb y)
  obtain ⟨p, q, rfl⟩ : ∃ (p : Fin 1024) (q : Fin 512), y = ix2 p q := ⟨y 0, y 1, eq_ix2 y⟩
  have hemb : ((cfg2.win 7).blk t).view.emb (ix2 p q) = ix2 (brow (t.val / 5) p) q := by
    funext a
    apply Fin.ext
    match a with
    | ⟨0, _⟩ =>
      show win2_7.index t 0 * 1024 + 1 * p.val = (brow (t.val / 5) p).val
      rw [(idx2_7 t).1, brow_val (t.val / 5) (by omega) p]; omega
    | ⟨1, _⟩ =>
      show win2_7.index t 1 * 512 + 1 * q.val = q.val
      rw [(idx2_7 t).2]; omega
  rw [hemb]
  exact out2_7_eq V c t h1 p q

theorem cover2_6 (i : SPD.Idx) : ∃ t : Fin cfg2.N, (cfg2.win 6).flush t = true ∧ i ∈ ((cfg2.win 6).blk t).view.set := by
  have hi0 : (i 0).val < 10240 := (i 0).isLt
  have hi1 : (i 1).val < 512 := (i 1).isLt
  have hlt : 5 * ((i 0).val / 1024) + 4 < cfg2.N := by rw [show cfg2.N = 50 from N_2]; omega
  refine ⟨⟨5 * ((i 0).val / 1024) + 4, hlt⟩, (flush2_6 _).mpr (by dsimp only; omega), ?_⟩
  show i ∈ ((View.whole main_v57_0).slice (win2_6.rect ⟨5 * ((i 0).val / 1024) + 4, hlt⟩)).set
  rw [View.set_slice_whole, Rect.mem_set_unit]
  intro a
  match a with
  | ⟨0, _⟩ =>
    show win2_6.index ⟨5 * ((i 0).val / 1024) + 4, hlt⟩ 0 * 1024 ≤ (i 0).val ∧ (i 0).val < win2_6.index ⟨5 * ((i 0).val / 1024) + 4, hlt⟩ 0 * 1024 + 1024
    rw [(idx2_6 ⟨5 * ((i 0).val / 1024) + 4, hlt⟩).1]; dsimp only; omega
  | ⟨1, _⟩ =>
    show win2_6.index ⟨5 * ((i 0).val / 1024) + 4, hlt⟩ 1 * 512 ≤ (i 1).val ∧ (i 1).val < win2_6.index ⟨5 * ((i 0).val / 1024) + 4, hlt⟩ 1 * 512 + 512
    rw [(idx2_6 ⟨5 * ((i 0).val / 1024) + 4, hlt⟩).2]; omega

theorem cover2_7 (i : SPD.Idx) : ∃ t : Fin cfg2.N, (cfg2.win 7).flush t = true ∧ i ∈ ((cfg2.win 7).blk t).view.set := by
  have hi0 : (i 0).val < 10240 := (i 0).isLt
  have hi1 : (i 1).val < 512 := (i 1).isLt
  have hlt : 5 * ((i 0).val / 1024) + 4 < cfg2.N := by rw [show cfg2.N = 50 from N_2]; omega
  refine ⟨⟨5 * ((i 0).val / 1024) + 4, hlt⟩, (flush2_7 _).mpr (by dsimp only; omega), ?_⟩
  show i ∈ ((View.whole main_v57_1).slice (win2_7.rect ⟨5 * ((i 0).val / 1024) + 4, hlt⟩)).set
  rw [View.set_slice_whole, Rect.mem_set_unit]
  intro a
  match a with
  | ⟨0, _⟩ =>
    show win2_7.index ⟨5 * ((i 0).val / 1024) + 4, hlt⟩ 0 * 1024 ≤ (i 0).val ∧ (i 0).val < win2_7.index ⟨5 * ((i 0).val / 1024) + 4, hlt⟩ 0 * 1024 + 1024
    rw [(idx2_7 ⟨5 * ((i 0).val / 1024) + 4, hlt⟩).1]; dsimp only; omega
  | ⟨1, _⟩ =>
    show win2_7.index ⟨5 * ((i 0).val / 1024) + 4, hlt⟩ 1 * 512 ≤ (i 1).val ∧ (i 1).val < win2_7.index ⟨5 * ((i 0).val / 1024) + 4, hlt⟩ 1 * 512 + 512
    rw [(idx2_7 ⟨5 * ((i 0).val / 1024) + 4, hlt⟩).2]; omega

theorem final2_6 : (dat2 V c).arrAt 6 cfg2.N = G2a V c :=
  (dat2 V c).arrAt_eq_of_cover 6 (G2a V c) (fun t hf => flushed2_6_eq V c t hf) cover2_6

theorem final2_7 : (dat2 V c).arrAt 7 cfg2.N = G2b V c :=
  (dat2 V c).arrAt_eq_of_cover 7 (G2b V c) (fun t hf => flushed2_7_eq V c t hf) cover2_7

end Cert.KernelIdeal.Fr

end
-- ==== Proof.Norm.lean ====
import proofs.«413367_j60610578482006_3_alg».proof.Proof.Spec
import Idealize.ShloMosaic.PureOps
import Idealize.ShloMosaic.Lib.IdealHost

noncomputable section

namespace Cert.GraphConv

open Idealize.ShloMosaic Idealize.ShloMosaic.ValueIdx

abbrev S0 : Shape := ⟨0, ![]⟩
abbrev SE1 : Shape := ⟨2, ![160000, 1]⟩

theorem bc_S0_SN : S0.BroadcastsInDim SN (![] : Fin 0 → Fin SN.rank) := by decide
theorem bc_S0_SE : S0.BroadcastsInDim SE (![] : Fin 0 → Fin SE.rank) := by decide
theorem bc_SE_SE1 : SE.BroadcastsInDim SE1 (![0] : Fin 1 → Fin SE1.rank) := by decide
theorem degDims_wf : ScatterDims.WF SN SE1 SE [] [0] [0] 1 := by decide

def degDims : ScatterDims SN SE1 SE where
  updateWindowDims := []
  insertedWindowDims := [0]
  scatterDimsToOperandDims := [0]
  indexVectorDim := 1
  wf := degDims_wf

variable {F : FTy → Type} [FloatOps F]

def degOf (idx : IVec SE 32) : FVec F SN .f32 :=
  Host.scatterAdd degDims (broadcastInDim SN ![] bc_S0_SN (constant S0 .f32 0x00000000#32))
    (broadcastInDim SE1 ![0] bc_SE_SE1 idx) (broadcastInDim SE ![] bc_S0_SE (constant S0 .f32 0x3F800000#32))

def normOf (idx : IVec SE 32) : FVec F SN .f32 :=
  select (cmpf .ogt (degOf (F := F) idx) (broadcastInDim SN ![] bc_S0_SN (constant S0 .f32 0x00000000#32)))
    (Host.powf (degOf (F := F) idx) (broadcastInDim SN ![] bc_S0_SN (constant S0 .f32 0xBF000000#32)))
    (broadcastInDim SN ![] bc_S0_SN (id (constant S0 .f32 0x00000000#32)))

private theorem ofBits_neg_half_f32 : Ideal.ofBits .f32 0xBF000000#32 = ((-(1 / 2 : ℝ) : ℝ) : EReal) := by
  simp [Ideal.ofBits, Ideal.ieee, -EReal.coe_mul, -EReal.coe_neg]; norm_num

private theorem sum_isReal {ι : Type} (S : Finset ι) (f : ι → EReal) (hf : ∀ j ∈ S, ∃ r : ℝ, f j = (r : EReal)) :
    ∃ r : ℝ, ∑ j ∈ S, f j = (r : EReal) := by
  classical
  induction S using Finset.induction_on with
  | empty => exact ⟨0, by simp⟩
  | insert a S ha ih =>
    obtain ⟨r, hr⟩ := hf a (Finset.mem_insert_self a S)
    obtain ⟨q, hq⟩ := ih fun j hj => hf j (Finset.mem_insert_of_mem hj)
    exact ⟨r + q, by rw [Finset.sum_insert ha, hr, hq, EReal.coe_add]⟩

private theorem splatSN_apply (b : BitVec 32) (i : SN.Idx) :
    broadcastInDim SN ![] bc_S0_SN (constant (F := Ideal) S0 .f32 b) i = Ideal.ofBits .f32 b := rfl

private theorem powf_apply (x y : FVec Ideal SN .f32) (i : SN.Idx) : Host.powf x y i = Ideal.pow (x i) (y i) := rfl

theorem degOf_real (idx : IVec SE 32) : IsReal (s := SN) (degOf (F := Ideal) idx) := by
  intro i
  obtain ⟨q, hq⟩ := sum_isReal
    (Finset.univ.filter fun j : SE.Idx => degDims.resultIdx? j (broadcastInDim SE1 ![0] bc_SE_SE1 idx) = some i)
    (broadcastInDim SE ![] bc_S0_SE (constant (F := Ideal) S0 .f32 0x3F800000#32))
    (fun j _ => ⟨1, by
      show Ideal.ofBits .f32 0x3F800000#32 = _
      rw [Ideal.ofBits_one_f32, EReal.coe_one]⟩)
  refine ⟨0 + q, ?_⟩
  show Ideal.ofBits .f32 0x00000000#32 + ∑ j ∈ _, _ = _
  rw [hq, Ideal.ofBits_zero_f32, EReal.coe_add, EReal.coe_zero]

theorem normOf_real (idx : IVec SE 32) : IsReal (s := SN) (normOf (F := Ideal) idx) := by
  intro i
  obtain ⟨d, hd⟩ := degOf_real idx i
  unfold normOf
  rw [select_apply]
  by_cases h : cmpf .ogt (degOf (F := Ideal) idx)
      (broadcastInDim SN ![] bc_S0_SN (constant S0 .f32 0x00000000#32)) i = 1#1
  · rw [h, select_one, powf_apply, hd, splatSN_apply, ofBits_neg_half_f32, Ideal.pow_coe_coe]
    exact ⟨_, rfl⟩
  · rw [eq_zero_of_ne_one h, select_zero]
    exact ⟨0, (splatSN_apply _ i).trans (by rw [Ideal.ofBits_zero_f32, EReal.coe_zero])⟩

end Cert.GraphConv

end
-- ==== Proof.KHostArgs.lean ====
import proofs.«413367_j60610578482006_3_alg».proof.Proof.Gen.KernelIdeal.Regions
import proofs.«413367_j60610578482006_3_alg».proof.Proof.Norm

noncomputable section

namespace Cert.KernelIdeal.KHost

open Cert.KernelIdeal Cert.KernelIdeal.Gen Cert.GraphConv
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

abbrev aX : SND.Idx → EReal := m ((c.tc : Thread nD τ).loc main_arg0)
abbrev aW1 : SDD.Idx → EReal := m ((c.tc : Thread nD τ).loc main_arg1)
abbrev aB1 : SD.Idx → EReal := m ((c.tc : Thread nD τ).loc main_arg2)
abbrev aW2 : SDD.Idx → EReal := m ((c.tc : Thread nD τ).loc main_arg3)
abbrev aB2 : SD.Idx → EReal := m ((c.tc : Thread nD τ).loc main_arg4)
abbrev aW3 : SDD.Idx → EReal := m ((c.tc : Thread nD τ).loc main_arg5)
abbrev aB3 : SD.Idx → EReal := m ((c.tc : Thread nD τ).loc main_arg6)
abbrev aSrc : SE.Idx → BitVec 32 := m ((c.tc : Thread nD τ).loc main_arg7)
abbrev aDst : SE.Idx → BitVec 32 := m ((c.tc : Thread nD τ).loc main_arg8)

end Cert.KernelIdeal.KHost

end
-- ==== Proof.KHostAdj.lean ====
import proofs.«413367_j60610578482006_3_alg».proof.Proof.KHostArgs
import Idealize.ShloMosaic.Lib.StableHlo.Run
import Idealize.ShloMosaic.Lib.StableHlo.Predicate
import Idealize.ShloMosaic.Lib.Pipeline.Value
import Idealize.ShloMosaic.Lib.ValueLayout

noncomputable section

namespace Cert.KernelIdeal.KHost

open Cert.KernelIdeal Cert.KernelIdeal.Gen Cert.GraphConv
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

namespace Adj

section ScatterCol

variable {N n w : Nat} (d : ScatterDims ⟨1, ![N]⟩ ⟨2, ![n, 1]⟩ ⟨1, ![n]⟩)

theorem scatterCol_siIdx (hsd : d.scatterDimsToOperandDims = [0]) (hivd : d.indexVectorDim = 1) (e : Fin n)
    (c : Fin d.scatterDimsToOperandDims.length) : d.siIdx (ix1 e) c = ix2 e 0 := by
  funext b
  match b with
  | ⟨0, _⟩ =>
    unfold ScatterDims.siIdx
    rw [dif_neg (by rw [hivd]; simp)]
    unfold ScatterDims.siCoord
    apply Fin.ext
    simp only [Fin.val_cast]
    have h1 : ∀ X : Fin 1, ((ix1 e : (⟨1, ![n]⟩ : Shape).Idx) X).val = e.val := fun X => by
      have hX : X = 0 := Subsingleton.elim _ _
      subst hX; rfl
    exact h1 _
  | ⟨1, _⟩ =>
    unfold ScatterDims.siIdx
    rw [dif_pos (by rw [hivd])]
    apply Fin.ext
    have := c.isLt
    simp only [hsd, List.length_singleton] at this
    show c.val = 0
    omega

theorem scatterCol_start (hsd : d.scatterDimsToOperandDims = [0]) (hivd : d.indexVectorDim = 1) (idx : IVec ⟨2, ![n, 1]⟩ w)
    (e : Fin n) (a : Fin 1) : d.start (ix1 e) idx a = (idx (ix2 e 0)).toInt := by
  obtain rfl : a = 0 := Subsingleton.elim _ _
  unfold ScatterDims.start
  rw [dif_pos (show (0 : Fin 1) ∈ d.scatterDimsToOperandDims by rw [hsd]; exact List.mem_singleton.mpr rfl),
    scatterCol_siIdx d hsd hivd]

theorem scatterCol_window (hiw : d.insertedWindowDims = [0]) (e : Fin n) (a : Fin 1) : d.window (ix1 e) a = 0 := by
  obtain rfl : a = 0 := Subsingleton.elim _ _
  unfold ScatterDims.window
  rw [dif_neg]
  simp [ScatterDims.sKept, Shape.kept, hiw]

theorem scatterCol_resultIdx (hiw : d.insertedWindowDims = [0]) (hsd : d.scatterDimsToOperandDims = [0])
    (hivd : d.indexVectorDim = 1) (idx : IVec ⟨2, ![n, 1]⟩ w) (e : Fin n) (k : Fin N) :
    d.resultIdx? (ix1 e) idx = some (ix1 k) ↔ (idx (ix2 e 0)).toInt = (k.val : ℤ) := by
  unfold ScatterDims.resultIdx?
  simp only [scatterCol_start d hsd hivd, scatterCol_window d hiw, Nat.cast_zero, add_zero]
  constructor
  · intro h
    split at h
    · rename_i hr
      have h0 := congrFun (Option.some.inj h) (0 : Fin 1)
      have h1 : ((idx (ix2 e 0)).toInt).toNat = k.val := congrArg Fin.val h0
      have := (hr 0).1
      omega
    · exact absurd h (by simp)
  · intro h
    have hk : k.val < N := k.isLt
    rw [dif_pos (fun a => by
      obtain rfl : a = 0 := Subsingleton.elim _ _
      show 0 ≤ (idx (ix2 e 0)).toInt ∧ (idx (ix2 e 0)).toInt < ((N : ℕ) : ℤ)
      omega)]
    congr 1
    funext a
    obtain rfl : a = 0 := Subsingleton.elim _ _
    apply Fin.ext
    show ((idx (ix2 e 0)).toInt).toNat = k.val
    omega

end ScatterCol

theorem gatherCol_apply {α : Type} {N n w : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) (hN : 0 < N) :
    Host.gather d x idx (ix1 e) = x (ix1 ⟨min (idx (ix2 e 0)).toInt.toNat (N - 1), by omega⟩) := by
  have h1 : (ix1 e : (⟨1, ![n]⟩ : Shape).Idx) = Shape.Idx.ofFin e := by
    funext a; obtain rfl : a = 0 := Subsingleton.elim _ _; rfl
  have h2 : (ix2 e (0 : Fin 1) : (⟨2, ![n, 1]⟩ : Shape).Idx) = StableHlo.Predicate.ixP e := by
    funext a; match a with | ⟨0, _⟩ => rfl | ⟨1, _⟩ => rfl
  rw [h1, StableHlo.Predicate.gather_take d hcoll hob hsim hivd x idx e hN]
  congr 1
  funext a; obtain rfl : a = 0 := Subsingleton.elim _ _
  apply Fin.ext
  show min (idx (StableHlo.Predicate.ixP e)).toInt.toNat (N - 1) = min (idx (ix2 e 0)).toInt.toNat (N - 1)
  rw [h2]

section Words

theorem toNat_of_node {w : BitVec 32} (h : 0 ≤ w.toInt ∧ w.toInt < 10000) : w.toNat < 10000 ∧ w.toInt = (w.toNat : ℤ) := by
  have := BitVec.toInt_eq_toNat_cond w
  split at this <;> omega

theorem wrap_of_node {w : BitVec 32} (h : 0 ≤ w.toInt ∧ w.toInt < 10000) (n : BitVec 32) :
    Scalar.select (IntOp.cmpi .slt w 0#32) (IntOp.addi w n) w = w := by
  have hc : IntOp.cmpi .slt w 0#32 = 0#1 := by
    unfold IntOp.cmpi
    have : w.slt 0#32 = false := by
      rw [BitVec.slt_eq_decide]
      simp only [BitVec.toInt_zero, decide_eq_false_iff_not, not_lt]
      exact h.1
    rw [this]; rfl
  rw [hc, select_zero]

theorem flat_of_nodes {a b : BitVec 32} (ha : 0 ≤ a.toInt ∧ a.toInt < 10000) (hb : 0 ≤ b.toInt ∧ b.toInt < 10000) :
    (IntOp.addi (IntOp.muli a 10240#32) b).toInt = ((a.toNat * 10240 + b.toNat : ℕ) : ℤ) := by
  obtain ⟨ha1, _⟩ := toNat_of_node ha
  obtain ⟨hb1, _⟩ := toNat_of_node hb
  have hn : (IntOp.addi (IntOp.muli a 10240#32) b).toNat = a.toNat * 10240 + b.toNat := by
    unfold IntOp.addi IntOp.muli
    rw [BitVec.toNat_add, BitVec.toNat_mul]
    simp only [BitVec.toNat_ofNat]
    omega
  have := BitVec.toInt_eq_toNat_cond (IntOp.addi (IntOp.muli a 10240#32) b)
  rw [hn] at this
  split at this <;> omega

theorem wrap_of_flat {f : BitVec 32} (h : 0 ≤ f.toInt) (n : BitVec 32) :
    Scalar.select (IntOp.cmpi .slt f 0#32) (IntOp.addi f n) f = f := by
  have hc : IntOp.cmpi .slt f 0#32 = 0#1 := by
    unfold IntOp.cmpi
    have : f.slt 0#32 = false := by
      rw [BitVec.slt_eq_decide]
      simp only [BitVec.toInt_zero, decide_eq_false_iff_not, not_lt]
      exact h
    rw [this]; rfl
  rw [hc, select_zero]

end Words

def idxEquiv1 {n : Nat} : Fin n ≃ (⟨1, ![n]⟩ : Shape).Idx where
  toFun := ix1
  invFun j := j 0
  left_inv _ := rfl
  right_inv j := (eq_ix1 j).symm

section Stretches

variable (W : Valuation τ sig (Elt Ideal))

theorem after0_v3 : (StableHlo.after hostOps0 W (Proc.devRef .tc main_v3) : SN.Idx → EReal)
    = degOf (F := Ideal) (W (Proc.devRef .tc main_arg7)) := by
  after_results
  rfl

theorem after0_v8 : (StableHlo.after hostOps0 W (Proc.devRef .tc main_v8) : SN.Idx → BitVec 1)
    = cmpf (F := Ideal) (φ := .f32) (s := SN) .ogt (degOf (F := Ideal) (W (Proc.devRef .tc main_arg7)))
        (broadcastInDim SN ![] bc_S0_SN (constant S0 .f32 0x00000000#32)) := by
  after_results
  rfl

theorem after0_v10 : (StableHlo.after hostOps0 W (Proc.devRef .tc main_v10) : SN.Idx → EReal)
    = Host.powf (F := Ideal) (φ := .f32) (s := SN) (degOf (F := Ideal) (W (Proc.devRef .tc main_arg7)))
        (broadcastInDim SN ![] bc_S0_SN (constant S0 .f32 0xBF000000#32)) := by
  after_results
  rfl

theorem after0_cst4 : (StableHlo.after hostOps0 W (Proc.devRef .tc main_cst_4) : S0.Idx → EReal)
    = constant (F := Ideal) S0 .f32 0x00000000#32 := by
  after_results

theorem after0_v6 : (StableHlo.after hostOps0 W (Proc.devRef .tc main_v6) : SN.Idx → EReal)
    = degOf (F := Ideal) (W (Proc.devRef .tc main_arg8)) := by
  after_results
  rfl

theorem after1_v11 : (StableHlo.after hostOps0_1 W (Proc.devRef .tc main_v11) : SN.Idx → EReal)
    = select (W (Proc.devRef .tc main_v8) : SN.Idx → BitVec 1) (W (Proc.devRef .tc main_v10) : SN.Idx → EReal)
        (broadcastInDim SN ![] bc_S0_SN (id (W (Proc.devRef .tc main_cst_4) : S0.Idx → EReal))) := by
  after_results
  simp only [TRef.ofBuf, TRef.toBuf, cast_eq]
  try rfl

theorem after2_v13 : (StableHlo.after hostOps0_2 W (Proc.devRef .tc main_v13) : SN.Idx → BitVec 1)
    = cmpf (F := Ideal) (φ := .f32) (s := SN) .ogt (W (Proc.devRef .tc main_v6) : SN.Idx → EReal)
        (broadcastInDim SN ![] bc_S0_SN (constant S0 .f32 0x00000000#32)) := by
  after_results

theorem after2_v15 : (StableHlo.after hostOps0_2 W (Proc.devRef .tc main_v15) : SN.Idx → EReal)
    = Host.powf (F := Ideal) (φ := .f32) (s := SN) (W (Proc.devRef .tc main_v6) : SN.Idx → EReal)
        (broadcastInDim SN ![] bc_S0_SN (constant S0 .f32 0xBF000000#32)) := by
  after_results

theorem after2_cst7 : (StableHlo.after hostOps0_2 W (Proc.devRef .tc main_cst_7) : S0.Idx → EReal)
    = constant (F := Ideal) S0 .f32 0x00000000#32 := by
  after_results

theorem after3_v16 : (StableHlo.after hostOps0_3 W (Proc.devRef .tc main_v16) : SN.Idx → EReal)
    = select (W (Proc.devRef .tc main_v13) : SN.Idx → BitVec 1) (W (Proc.devRef .tc main_v15) : SN.Idx → EReal)
        (broadcastInDim SN ![] bc_S0_SN (id (W (Proc.devRef .tc main_cst_7) : S0.Idx → EReal))) := by
  after_results
  simp only [TRef.ofBuf, TRef.toBuf, cast_eq]
  try rfl

end Stretches

theorem V2_v11 : (V2 m c main_v11 : SN.Idx → EReal) = normOf (F := Ideal) (aSrc m c) := by
  show StableHlo.after hostOps0_1 (V1 m c) (Proc.devRef .tc main_v11) = _
  rw [after1_v11]
  show select (StableHlo.after hostOps0 (V0 m c) (Proc.devRef .tc main_v8))
    (StableHlo.after hostOps0 (V0 m c) (Proc.devRef .tc main_v10))
    (broadcastInDim SN ![] bc_S0_SN (id (StableHlo.after hostOps0 (V0 m c) (Proc.devRef .tc main_cst_4)))) = _
  rw [after0_v8, after0_v10, after0_cst4]
  rfl

theorem V2_v6 : (V2 m c main_v6 : SN.Idx → EReal) = degOf (F := Ideal) (aDst m c) :=
  (V2_of m c main_v6 (by decide)).trans (after0_v6 (V0 m c))

theorem V4_v16 : (V4 m c main_v16 : SN.Idx → EReal) = normOf (F := Ideal) (aDst m c) := by
  show StableHlo.after hostOps0_3 (V3 m c) (Proc.devRef .tc main_v16) = _
  rw [after3_v16]
  show select (StableHlo.after hostOps0_2 (V2 m c) (Proc.devRef .tc main_v13))
    (StableHlo.after hostOps0_2 (V2 m c) (Proc.devRef .tc main_v15))
    (broadcastInDim SN ![] bc_S0_SN (id (StableHlo.after hostOps0_2 (V2 m c) (Proc.devRef .tc main_cst_7)))) = _
  rw [after2_v13, after2_v15, after2_cst7, V2_v6]
  rfl

theorem V4_v11 : (V4 m c main_v11 : SN.Idx → EReal) = normOf (F := Ideal) (aSrc m c) :=
  (V4_of m c main_v11 (by decide)).trans <| (V3_of m c main_v11 (by decide)).trans (V2_v11 m c)

end Adj

theorem V5_no : (V5 m c main_v11 : SN.Idx → EReal) = normOf (F := Ideal) (aSrc m c) :=
  (V5_of m c main_v11 (by decide)).trans (Adj.V4_v11 m c)

theorem V5_ni : (V5 m c main_v16 : SN.Idx → EReal) = normOf (F := Ideal) (aDst m c) :=
  (V5_of m c main_v16 (by decide)).trans (Adj.V4_v16 m c)

namespace Adj

abbrev SF : Shape := ⟨1, ![104857600]⟩

theorem bc_S0_SF : S0.BroadcastsInDim SF (![] : Fin 0 → Fin SF.rank) := by decide
theorem sc_SF_SPP : SF.ShapeCasts SPP := by decide

section Term

variable (no ni : FVec Ideal SN .f32) (src dst : IVec SE 32)

def wrapNode (idx : IVec SE 32) : IVec SE 32 :=
  select (cmpi .slt idx (broadcastInDim SE ![] bc_S0_SE (constantI S0 32 0#32)))
    (addi idx (broadcastInDim SE ![] bc_S0_SE (constantI S0 32 10000#32))) idx

def flatCell : IVec SE 32 :=
  addi (muli dst (broadcastInDim SE ![] bc_S0_SE (constantI S0 32 10240#32))) src

def wrapFlat (f : IVec SE 32) : IVec SE 32 :=
  select (cmpi .slt f (broadcastInDim SE ![] bc_S0_SE (constantI S0 32 0#32)))
    (addi f (broadcastInDim SE ![] bc_S0_SE (constantI S0 32 104857600#32))) f

def edgeWeight : FVec Ideal SE .f32 :=
  mulf (Host.gather gather_S10000_S160000x1_S160000_n_0_n_n_0_1_1 no (broadcastInDim SE1 ![0] bc_SE_SE1 (wrapNode src)))
    (Host.gather gather_S10000_S160000x1_S160000_n_0_n_n_0_1_1 ni (broadcastInDim SE1 ![0] bc_SE_SE1 (wrapNode dst)))

def flatAdj : FVec Ideal SF .f32 :=
  Host.scatterAdd scatter_S104857600_S160000x1_S160000_n_0_0_1
    (broadcastInDim SF ![] bc_S0_SF (constant S0 .f32 0x00000000#32))
    (broadcastInDim SE1 ![0] bc_SE_SE1 (wrapFlat (flatCell src dst)))
    (edgeWeight no ni src dst)

def adjTerm : SPP.Idx → EReal :=
  truncf .bf16 (shapeCast SPP (flatAdj no ni src dst) sc_SF_SPP) (by decide : FTy.bits .bf16 < FTy.bits .f32)

end Term

section Math

variable (no ni : FVec Ideal SN .f32) (src dst : IVec SE 32)

theorem col_apply (v : IVec SE 32) (e : Fin 160000) :
    broadcastInDim SE1 ![0] bc_SE_SE1 v (ix2 e 0) = v (ix1 e) :=
  broadcastInDim_apply _ _ _ _ _ (fun a => by obtain rfl : a = 0 := Subsingleton.elim _ _; rfl)

theorem wrapNode_apply {idx : IVec SE 32} (h : InRange idx) (e : Fin 160000) : wrapNode idx (ix1 e) = idx (ix1 e) :=
  wrap_of_node (h e) _

theorem node_val {idx : IVec SE 32} (h : InRange idx) (e : Fin 160000) : (node idx e).val = (idx (ix1 e)).toNat := by
  have := (toNat_of_node (h e)).1
  show min (idx (ix1 e)).toNat 9999 = _
  omega

theorem take_apply (x : FVec Ideal SN .f32) {idx : IVec SE 32} (h : InRange idx) (e : Fin 160000) :
    Host.gather gather_S10000_S160000x1_S160000_n_0_n_n_0_1_1 x (broadcastInDim SE1 ![0] bc_SE_SE1 (wrapNode idx)) (ix1 e)
      = x (ix1 (node idx e)) := by
  rw [gatherCol_apply _ rfl rfl rfl rfl x _ e (by decide)]
  have hw : (broadcastInDim SE1 ![0] bc_SE_SE1 (wrapNode idx)) (ix2 e 0) = idx (ix1 e) :=
    (col_apply _ e).trans (wrapNode_apply h e)
  have := toNat_of_node (h e)
  congr 1; funext a; obtain rfl : a = 0 := Subsingleton.elim _ _
  apply Fin.ext
  show min ((broadcastInDim SE1 ![0] bc_SE_SE1 (wrapNode idx)) (ix2 e 0)).toInt.toNat (10000 - 1) = min (idx (ix1 e)).toNat 9999
  rw [hw]; omega

theorem edgeWeight_apply (hs : InRange src) (hd : InRange dst) (e : Fin 160000) :
    edgeWeight no ni src dst (ix1 e) = no (ix1 (node src e)) * ni (ix1 (node dst e)) := by
  unfold edgeWeight
  rw [mulf_apply, take_apply no hs e, take_apply ni hd e]

theorem flat_apply (hs : InRange src) (hd : InRange dst) (e : Fin 160000) :
    ((broadcastInDim SE1 ![0] bc_SE_SE1 (wrapFlat (flatCell src dst))) (ix2 e 0)).toInt
      = (((dst (ix1 e)).toNat * 10240 + (src (ix1 e)).toNat : ℕ) : ℤ) := by
  have hf := flat_of_nodes (hd e) (hs e)
  have hw : wrapFlat (flatCell src dst) (ix1 e) = IntOp.addi (IntOp.muli (dst (ix1 e)) 10240#32) (src (ix1 e)) :=
    wrap_of_flat (f := IntOp.addi (IntOp.muli (dst (ix1 e)) 10240#32) (src (ix1 e)))
      (by rw [hf]; exact Int.natCast_nonneg _) _
  rw [col_apply, hw, hf]

theorem flatAdj_apply (hs : InRange src) (hd : InRange dst) (k : Fin 104857600) :
    flatAdj no ni src dst (ix1 k)
      = ∑ e ∈ Finset.univ.filter (fun e : Fin 160000 => (dst (ix1 e)).toNat * 10240 + (src (ix1 e)).toNat = k.val),
          no (ix1 (node src e)) * ni (ix1 (node dst e)) := by
  show Ideal.ofBits .f32 0x00000000#32
      + ∑ j ∈ Finset.univ.filter (fun j : SE.Idx => scatter_S104857600_S160000x1_S160000_n_0_0_1.resultIdx? j
          (broadcastInDim SE1 ![0] bc_SE_SE1 (wrapFlat (flatCell src dst))) = some (ix1 k)), edgeWeight no ni src dst j = _
  rw [Ideal.ofBits_zero_f32, zero_add]
  symm
  refine Finset.sum_equiv idxEquiv1 (fun e => ?_) (fun e _ => ?_)
  · simp only [Finset.mem_filter, Finset.mem_univ, true_and]
    show _ ↔ scatter_S104857600_S160000x1_S160000_n_0_0_1.resultIdx? (ix1 e) _ = some (ix1 k)
    rw [scatterCol_resultIdx _ rfl rfl rfl, flat_apply src dst hs hd e]
    omega
  · exact (edgeWeight_apply no ni src dst hs hd e).symm

theorem adjTerm_eq (hs : InRange src) (hd : InRange dst) : adjTerm no ni src dst = adjOf no ni src dst := by
  funext i
  have h0 : (i 0).val < 10240 := idx2_lt0 i
  have h1 : (i 1).val < 10240 := idx2_lt1 i
  have hk : (i 0).val * 10240 + (i 1).val < 104857600 := by omega
  have e1 : adjTerm no ni src dst i = flatAdj no ni src dst (ix1 ⟨(i 0).val * 10240 + (i 1).val, hk⟩) := by
    unfold adjTerm
    rw [truncf_apply]
    exact shapeCast_apply _ _ _ _ (by rw [Shape.rowMajor_val_one, Shape.rowMajor_val_two]; rfl)
  rw [e1, flatAdj_apply no ni src dst hs hd]
  unfold adjOf
  refine Finset.sum_congr (Finset.filter_congr fun e _ => ?_) (fun _ _ => rfl)
  rw [node_val hd e, node_val hs e]
  have := (toNat_of_node (hs e)).1
  show (dst (ix1 e)).toNat * 10240 + (src (ix1 e)).toNat = (i 0).val * 10240 + (i 1).val ↔ _
  omega

end Math

theorem V5_v44 : (V5 m c main_v44 : SPP.Idx → EReal)
    = adjTerm (V4 m c (Proc.devRef .tc main_v11)) (V4 m c (Proc.devRef .tc main_v16))
        (V4 m c (Proc.devRef .tc main_arg7)) (V4 m c (Proc.devRef .tc main_arg8)) := by
  show StableHlo.after hostOps0_4 (V4 m c) (Proc.devRef .tc main_v44) = _
  generalize V4 m c = W
  after_results_simp
  rfl

theorem V4_arg7 : (V4 m c (Proc.devRef .tc main_arg7) : SE.Idx → BitVec 32) = aSrc m c :=
  (V4_of m c main_arg7 (by decide)).trans <| (V3_of m c main_arg7 (by decide)).trans <|
    (V2_of m c main_arg7 (by decide)).trans <| (V1_of m c main_arg7 (by decide)).trans rfl
theorem V4_arg8 : (V4 m c (Proc.devRef .tc main_arg8) : SE.Idx → BitVec 32) = aDst m c :=
  (V4_of m c main_arg8 (by decide)).trans <| (V3_of m c main_arg8 (by decide)).trans <|
    (V2_of m c main_arg8 (by decide)).trans <| (V1_of m c main_arg8 (by decide)).trans rfl

end Adj

open Adj in

theorem V5_adj (hs : InRange (aSrc m c)) (hd : InRange (aDst m c)) :
    (V5 m c main_v44 : SPP.Idx → EReal)
      = adjOf (normOf (F := Ideal) (aSrc m c)) (normOf (F := Ideal) (aDst m c)) (aSrc m c) (aDst m c) := by
  rw [V5_v44, V4_arg7, V4_arg8]
  show adjTerm (V4 m c main_v11) (V4 m c main_v16) (aSrc m c) (aDst m c) = _
  rw [V4_v11, V4_v16]
  exact adjTerm_eq _ _ _ _ hs hd

end Cert.KernelIdeal.KHost

end
-- ==== Proof.LibScatterSet.lean ====
import Idealize.ShloMosaic.PureOps

namespace Cert.Proof.ScatterSet

open Idealize.ShloMosaic

section Fold

variable {ι κ α : Type} [DecidableEq κ]

theorem foldl_keep (g : ι → Option κ) (v : ι → α) (step : (κ → α) → ι → (κ → α))
    (hnone : ∀ r n, g n = none → step r n = r)
    (hsome : ∀ r n k, g n = some k → step r n = fun i' => if i' = k then v n else r i')
    (i : κ) : ∀ (l : List ι) (r : κ → α), (∀ n ∈ l, g n ≠ some i) → l.foldl step r i = r i
  | [], _, _ => rfl
  | n :: l, r, h => by
    rw [List.foldl_cons, foldl_keep g v step hnone hsome i l (step r n) fun m hm => h m (List.mem_cons_of_mem _ hm)]
    cases hg : g n with
    | none => rw [hnone r n hg]
    | some k =>
      rw [hsome r n k hg]
      have hk : i ≠ k := fun e => h n List.mem_cons_self (by rw [hg, e])
      exact if_neg hk

theorem foldl_hit (g : ι → Option κ) (v : ι → α) (step : (κ → α) → ι → (κ → α))
    (hnone : ∀ r n, g n = none → step r n = r)
    (hsome : ∀ r n k, g n = some k → step r n = fun i' => if i' = k then v n else r i')
    (i : κ) (n₀ : ι) (h₀ : g n₀ = some i) (l₁ l₂ : List ι) (r : κ → α) (h₂ : ∀ n ∈ l₂, g n ≠ some i) :
    (l₁ ++ n₀ :: l₂).foldl step r i = v n₀ := by
  rw [List.foldl_append, List.foldl_cons, foldl_keep g v step hnone hsome i l₂ _ h₂, hsome _ n₀ i h₀]
  exact if_pos rfl

end Fold

section Scatter

variable {α : Type} {s si u : Shape} {w : Nat}

private theorem step_none (d : ScatterDims s si u) (idx : IVec si w) (upd : u.Idx → α) (r : s.Idx → α) (n : Fin u.numel)
    (h : d.resultIdx? (u.rowMajor.symm n) idx = none) :
    (match d.resultIdx? (u.rowMajor.symm n) idx with
      | some i => fun i' => if i' = i then (fun (_ b : α) => b) (r i) (upd (u.rowMajor.symm n)) else r i'
      | none => r) = r := by
  rw [h]

private theorem step_some (d : ScatterDims s si u) (idx : IVec si w) (upd : u.Idx → α) (r : s.Idx → α) (n : Fin u.numel)
    (k : s.Idx) (h : d.resultIdx? (u.rowMajor.symm n) idx = some k) :
    (match d.resultIdx? (u.rowMajor.symm n) idx with
      | some i => fun i' => if i' = i then (fun (_ b : α) => b) (r i) (upd (u.rowMajor.symm n)) else r i'
      | none => r) = fun i' => if i' = k then upd (u.rowMajor.symm n) else r i' := by
  rw [h]

theorem scatter_set_keep (d : ScatterDims s si u) (x : s.Idx → α) (idx : IVec si w) (upd : u.Idx → α) (i : s.Idx)
    (h : ∀ j, d.resultIdx? j idx ≠ some i) :
    Host.scatter d (fun _ b => b) x idx upd i = x i := by
  unfold Host.scatter
  exact foldl_keep (fun n => d.resultIdx? (u.rowMajor.symm n) idx) (fun n => upd (u.rowMajor.symm n)) _
    (fun r n hn => step_none d idx upd r n hn) (fun r n k hn => step_some d idx upd r n k hn) i _ x
    (fun n _ => h _)

theorem scatter_set_hit (d : ScatterDims s si u) (x : s.Idx → α) (idx : IVec si w) (upd : u.Idx → α) (i : s.Idx) (j : u.Idx)
    (hj : d.resultIdx? j idx = some i) (huniq : ∀ j', d.resultIdx? j' idx = some i → j' = j) :
    Host.scatter d (fun _ b => b) x idx upd i = upd j := by
  unfold Host.scatter
  obtain ⟨l₁, l₂, hl⟩ := List.append_of_mem (List.mem_finRange (u.rowMajor j))
  have hnd : (l₁ ++ u.rowMajor j :: l₂).Nodup := hl ▸ List.nodup_finRange _
  have hnot : u.rowMajor j ∉ l₂ := (List.nodup_cons.mp (List.nodup_append.mp hnd).2.1).1
  rw [hl]
  have := foldl_hit (fun n => d.resultIdx? (u.rowMajor.symm n) idx) (fun n => upd (u.rowMajor.symm n)) _
    (fun r n hn => step_none d idx upd r n hn) (fun r n k hn => step_some d idx upd r n k hn) i (u.rowMajor j)
    (by rw [Equiv.symm_apply_apply]; exact hj) l₁ l₂ x
    (fun n hn hsome => hnot (by
      have := huniq _ hsome
      rw [← this, Equiv.apply_symm_apply]; exact hn))
  exact this.trans (congrArg upd (Equiv.symm_apply_apply _ _))

theorem scatter_set_at (d : ScatterDims s si u) (x : s.Idx → α) (idx : IVec si w) (upd : u.Idx → α) (e : u.Idx → s.Idx)
    (he : ∀ j, d.resultIdx? j idx = some (e j)) (hinj : Function.Injective e) (j : u.Idx) :
    Host.scatter d (fun _ b => b) x idx upd (e j) = upd j :=
  scatter_set_hit d x idx upd (e j) j (he j) fun j' hj' => hinj (Option.some.inj ((he j').symm.trans hj'))

theorem scatter_set_off (d : ScatterDims s si u) (x : s.Idx → α) (idx : IVec si w) (upd : u.Idx → α) (e : u.Idx → s.Idx)
    (he : ∀ j, d.resultIdx? j idx = some (e j)) (i : s.Idx) (hi : ∀ j, e j ≠ i) :
    Host.scatter d (fun _ b => b) x idx upd i = x i :=
  scatter_set_keep d x idx upd i fun j hj => hi j (Option.some.inj ((he j).symm.trans hj))

end Scatter

end Cert.Proof.ScatterSet
-- ==== Proof.KHostIn.lean ====
import proofs.«413367_j60610578482006_3_alg».proof.Proof.KHostArgs
import proofs.«413367_j60610578482006_3_alg».proof.Proof.LibScatterSet
import Idealize.ShloMosaic.Lib.StableHlo.Run
import Idealize.ShloMosaic.Lib.Pipeline.Value
import Idealize.ShloMosaic.Lib.ValueLayout
import Idealize.ShloMosaic.Lib.IdealHost

noncomputable section

namespace Cert.KernelIdeal.KHost

open Cert.KernelIdeal Cert.KernelIdeal.Gen Cert.GraphConv
open Idealize.ShloMosaic Idealize.ShloMosaic.TcCoe Idealize.ShloMosaic.ValueIdx Idealize.SL.Sem Idealize.ShloMosaic.StableHlo
open Cert.Proof.ScatterSet

section PadScatter

variable {w : Nat}

abbrev dPad := scatter_S10240x512_S1_S10000x512_01_n_0_0

theorem dPad_start_row (j : S10000x512.Idx) (idx : IVec S1 w) : dPad.start j idx 0 = (idx (ix1 0)).toInt := by
  unfold ScatterDims.start
  rw [dif_pos (show (0 : Fin S10240x512.rank) ∈ dPad.scatterDimsToOperandDims from List.mem_cons_self ..)]
  congr 2
  funext b
  match b with
  | ⟨0, _⟩ => rfl

theorem dPad_start_col (j : S10000x512.Idx) (idx : IVec S1 w) : dPad.start j idx 1 = 0 := by
  unfold ScatterDims.start
  rw [dif_neg (show (1 : Fin S10240x512.rank) ∉ dPad.scatterDimsToOperandDims from by decide)]

theorem dPad_window_row (j : S10000x512.Idx) : dPad.window j 0 = (j 0).val := rfl
theorem dPad_window_col (j : S10000x512.Idx) : dPad.window j 1 = (j 1).val := rfl

def rowIn (j : S10000x512.Idx) : S10240x512.Idx :=
  ix2 (⟨(j 0).val, Nat.lt_trans (idx2_lt0 j) (by decide)⟩ : Fin 10240) (j 1)

theorem rowIn_injective : Function.Injective rowIn := by
  intro j j' h
  have h0 : (j 0).val = (j' 0).val := congrArg (fun t : S10240x512.Idx => (t 0).val) h
  have h1 : j 1 = j' 1 := congrArg (fun t : S10240x512.Idx => t 1) h
  funext a
  match a with
  | ⟨0, _⟩ => exact Fin.ext h0
  | ⟨1, _⟩ => exact h1

theorem dPad_resultIdx (j : S10000x512.Idx) (idx : IVec S1 32) (h0 : idx (ix1 0) = 0#32) :
    dPad.resultIdx? j idx = some (rowIn j) := by
  have hj0 : (j 0).val < 10000 := idx2_lt0 j
  have hj1 : (j 1).val < 512 := idx2_lt1 j
  have s0 : dPad.start j idx 0 = 0 := by rw [dPad_start_row, h0]; rfl
  have s1 := dPad_start_col j idx
  have w0 := dPad_window_row j
  have w1 := dPad_window_col j
  unfold ScatterDims.resultIdx?
  rw [dif_pos]
  · rw [Option.some.injEq]
    funext a
    match a with
    | ⟨0, _⟩ =>
      apply Fin.ext
      change (dPad.start j idx 0 + (dPad.window j 0 : Int)).toNat = (j 0).val
      rw [s0, w0]; omega
    | ⟨1, _⟩ =>
      apply Fin.ext
      change (dPad.start j idx 1 + (dPad.window j 1 : Int)).toNat = (j 1).val
      rw [s1, w1]; omega
  · intro a
    match a with
    | ⟨0, _⟩ =>
      change 0 ≤ dPad.start j idx 0 + (dPad.window j 0 : Int) ∧ dPad.start j idx 0 + (dPad.window j 0 : Int) < (10240 : Int)
      rw [s0, w0]; omega
    | ⟨1, _⟩ =>
      change 0 ≤ dPad.start j idx 1 + (dPad.window j 1 : Int) ∧ dPad.start j idx 1 + (dPad.window j 1 : Int) < (512 : Int)
      rw [s1, w1]; omega

theorem scatter_dPad_apply {α : Type} (x : S10240x512.Idx → α) (idx : IVec S1 32) (h0 : idx (ix1 0) = 0#32)
    (upd : S10000x512.Idx → α) (i : S10240x512.Idx) :
    Host.scatter dPad (fun _ b => b) x idx upd i
      = if h : (i 0).val < 10000 then upd (ix2 (⟨(i 0).val, h⟩ : Fin 10000) (i 1)) else x i := by
  by_cases h : (i 0).val < 10000
  · rw [dif_pos h]
    have hi : i = rowIn (ix2 (⟨(i 0).val, h⟩ : Fin 10000) (i 1)) := by
      funext a
      match a with
      | ⟨0, _⟩ => rfl
      | ⟨1, _⟩ => rfl
    exact (congrArg (Host.scatter dPad (fun _ b => b) x idx upd) hi).trans
      (scatter_set_at dPad x idx upd rowIn (fun j => dPad_resultIdx j idx h0) rowIn_injective _)
  · rw [dif_neg h]
    exact scatter_set_off dPad x idx upd rowIn (fun j => dPad_resultIdx j idx h0) i
      (fun j hj => h (by rw [← hj]; exact idx2_lt0 j))

end PadScatter

variable (m : (ℓ : Loc nD τ sig) → Buf (Elt Ideal) ℓ) (c : Dev nD)

theorem V5_x0 : (V5 m c main_v48 : SPD.Idx → EReal) = pad (aX m c) := by
  have e : (V5 m c main_v48 : SPD.Idx → EReal)
      = (Host.scatter dPad (fun _ b => b)
          (broadcastInDim S10240x512 ![] Facts₀.bcast_S_S10240x512 (constant (F := Ideal) S_ .bf16 0x0000#16) : FVec Ideal S10240x512 .bf16)
          (broadcastInDim S1 ![] Facts₀.bcast_S_S1 (constantI S_ 32 0#32) : IVec S1 32)
          (truncf .bf16 (aX m c : FVec Ideal S10000x512 .f32) Facts₀.bitsLt_bf16_f32 : FVec Ideal S10000x512 .bf16) : FVec Ideal S10240x512 .bf16) := by
    show StableHlo.after hostOps0_4 (V4 m c) (Proc.devRef .tc main_v48) = _
    after_results_simp
  rw [e]
  funext i
  rw [scatter_dPad_apply _ _ rfl]
  unfold Cert.GraphConv.pad
  by_cases h : (i 0).val < 10000
  · rw [dif_pos h, dif_pos h]; rfl
  · rw [dif_neg h, dif_neg h]
    exact Ideal.ofBits_zero_bf16

theorem V5_w1 : (V5 m c main_v49 : SDD.Idx → EReal) = aW1 m c := by
  show StableHlo.after hostOps0_4 (V4 m c) (Proc.devRef .tc main_v49) = _
  after_results
  rfl
theorem V5_w2 : (V5 m c main_v50 : SDD.Idx → EReal) = aW2 m c := by
  show StableHlo.after hostOps0_4 (V4 m c) (Proc.devRef .tc main_v50) = _
  after_results
  rfl
theorem V5_w3 : (V5 m c main_v51 : SDD.Idx → EReal) = aW3 m c := by
  show StableHlo.after hostOps0_4 (V4 m c) (Proc.devRef .tc main_v51) = _
  after_results
  rfl

theorem row_of_vec (b : SD.Idx → EReal) :
    (shapeCast S1x512 (b : FVec Ideal S512 .f32) Facts₀.shapeCasts_S512_S1x512 : (⟨2, ![1, 512]⟩ : Shape).Idx → EReal)
      = fun j => b (ix1 (j 1)) := by
  funext j
  obtain ⟨u, f, rfl⟩ : ∃ (u : Fin 1) (f : Fin 512), j = ix2 u f := ⟨j 0, j 1, eq_ix2 j⟩
  exact shapeCast_a_1a_apply (a := 512) b Facts₀.shapeCasts_S512_S1x512 u f

theorem V5_b1 : (V5 m c main_v52 : (⟨2, ![1, 512]⟩ : Shape).Idx → EReal) = fun j => aB1 m c (ix1 (j 1)) := by
  have e : (V5 m c main_v52 : (⟨2, ![1, 512]⟩ : Shape).Idx → EReal)
      = (shapeCast S1x512 (aB1 m c : FVec Ideal S512 .f32) Facts₀.shapeCasts_S512_S1x512 : FVec Ideal S1x512 .f32) := by
    show StableHlo.after hostOps0_4 (V4 m c) (Proc.devRef .tc main_v52) = _
    after_results
    rfl
  rw [e]; exact row_of_vec (aB1 m c)
theorem V5_b2 : (V5 m c main_v53 : (⟨2, ![1, 512]⟩ : Shape).Idx → EReal) = fun j => aB2 m c (ix1 (j 1)) := by
  have e : (V5 m c main_v53 : (⟨2, ![1, 512]⟩ : Shape).Idx → EReal)
      = (shapeCast S1x512 (aB2 m c : FVec Ideal S512 .f32) Facts₀.shapeCasts_S512_S1x512 : FVec Ideal S1x512 .f32) := by
    show StableHlo.after hostOps0_4 (V4 m c) (Proc.devRef .tc main_v53) = _
    after_results
    rfl
  rw [e]; exact row_of_vec (aB2 m c)
theorem V5_b3 : (V5 m c main_v54 : (⟨2, ![1, 512]⟩ : Shape).Idx → EReal) = fun j => aB3 m c (ix1 (j 1)) := by
  have e : (V5 m c main_v54 : (⟨2, ![1, 512]⟩ : Shape).Idx → EReal)
      = (shapeCast S1x512 (aB3 m c : FVec Ideal S512 .f32) Facts₀.shapeCasts_S512_S1x512 : FVec Ideal S1x512 .f32) := by
    show StableHlo.after hostOps0_4 (V4 m c) (Proc.devRef .tc main_v54) = _
    after_results
    rfl
  rw [e]; exact row_of_vec (aB3 m c)

theorem slice_pad (Y : SND.Idx → EReal) :
    (extractStridedSlice S10000x512 ![0, 0] (pad Y : FVec Ideal S10240x512 .f32) Facts₀.slices_S10240x512_S10000x512_0_0 : SND.Idx → EReal) = Y := by
  funext i
  obtain ⟨p, q, rfl⟩ : ∃ (p : Fin 10000) (q : Fin 512), i = ix2 p q := ⟨i 0, i 1, eq_ix2 i⟩
  refine (slice2_axis0_apply (n0 := 10240) (n1 := 512) (m := 10000) 0 (pad Y) Facts₀.slices_S10240x512_S10000x512_0_0
    p q ⟨p.val, by omega⟩ (Nat.zero_add _).symm).trans ?_
  show (if h : p.val < 10000 then Y (ix2 ⟨p.val, h⟩ q) else 0) = Y (ix2 p q)
  rw [dif_pos p.isLt]

end Cert.KernelIdeal.KHost

end
-- ==== Proof.Bridge.lean ====
import proofs.«413367_j60610578482006_3_alg».proof.Proof.Spec

noncomputable section

namespace Cert.GraphConv

open Idealize.ShloMosaic Idealize.ShloMosaic.ValueIdx
open scoped BigOperators

private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

private theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

private theorem real_add {a b : EReal} (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

private theorem real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

private theorem real_max_zero {a : EReal} (ha : ∃ r : ℝ, a = (r : EReal)) : ∃ r : ℝ, max a 0 = (r : EReal) := by
  obtain ⟨x, rfl⟩ := ha
  rcases le_total x 0 with h | h
  · exact ⟨0, by rw [max_eq_right (by exact_mod_cast h)]; rfl⟩
  · exact ⟨x, by rw [max_eq_left (by exact_mod_cast h)]⟩

theorem agg_real (X : SND.Idx → EReal) (no ni : SN.Idx → EReal) (src dst : SE.Idx → BitVec 32)
    (hX : IsReal X) (hno : IsReal no) (hni : IsReal ni) (d : Fin 10000) (g : Fin 512) :
    ∃ r : ℝ, agg X no ni src dst d g = (r : EReal) :=
  real_mul (real_sum _ _ fun _ _ => real_mul (hX _) (hno _)) (hni _)

private theorem bridge_real (xr : SND.Idx → ℝ) (nor nir : SN.Idx → ℝ) (src dst : SE.Idx → BitVec 32)
    (d' : Fin 10240) (h : d'.val < 10000) (g : Fin 512) :
    ∑ s : Fin 10240,
        (∑ e ∈ Finset.univ.filter (fun e : Fin 160000 => (node dst e).val = d'.val ∧ (node src e).val = s.val),
            nor (ix1 (node src e)) * nir (ix1 (node dst e))) *
          (if hs : s.val < 10000 then xr (ix2 ⟨s.val, hs⟩ g) else 0)
      = (∑ e ∈ Finset.univ.filter (fun e : Fin 160000 => node dst e = ⟨d'.val, h⟩),
            xr (ix2 (node src e) g) * nor (ix1 (node src e))) * nir (ix1 ⟨d'.val, h⟩) := by
  simp only [Finset.sum_mul]
  simp only [Finset.sum_filter]
  rw [Finset.sum_comm]
  refine Finset.sum_congr rfl fun e _ => ?_
  have hlt : (node src e).val < 10240 := by have := (node src e).isLt; omega
  rw [Finset.sum_eq_single (⟨(node src e).val, hlt⟩ : Fin 10240)]
  · by_cases hd : node dst e = ⟨d'.val, h⟩
    · have hv : (node dst e).val = d'.val := by rw [hd]
      rw [if_pos ⟨hv, rfl⟩, if_pos hd, dif_pos (node src e).isLt, hd]
      ring
    · have hv : ¬ ((node dst e).val = d'.val ∧ (node src e).val = (node src e).val) :=
        fun hh => hd (Fin.ext hh.1)
      rw [if_neg hv, if_neg hd]
  · intro s _ hs
    rw [if_neg]
    rintro ⟨_, h2⟩
    exact hs (Fin.ext h2.symm)
  · intro hn
    exact absurd (Finset.mem_univ _) hn

private theorem inner_eq (X : SND.Idx → EReal) (no ni : SN.Idx → EReal) (src dst : SE.Idx → BitVec 32)
    (hX : IsReal X) (hno : IsReal no) (hni : IsReal ni) (d' : Fin 10240) (h : d'.val < 10000) (g : Fin 512) :
    ∑ s : Fin 10240, adjOf no ni src dst (ix2 d' s) * pad X (ix2 s g) = agg X no ni src dst ⟨d'.val, h⟩ g := by
  obtain ⟨xr, hxr⟩ : ∃ xr : SND.Idx → ℝ, ∀ i, X i = (xr i : EReal) :=
    ⟨fun i => (hX i).choose, fun i => (hX i).choose_spec⟩
  obtain ⟨nor, hnor⟩ : ∃ nor : SN.Idx → ℝ, ∀ i, no i = (nor i : EReal) :=
    ⟨fun i => (hno i).choose, fun i => (hno i).choose_spec⟩
  obtain ⟨nir, hnir⟩ : ∃ nir : SN.Idx → ℝ, ∀ i, ni i = (nir i : EReal) :=
    ⟨fun i => (hni i).choose, fun i => (hni i).choose_spec⟩
  have hA : ∀ s : Fin 10240, adjOf no ni src dst (ix2 d' s) =
      ((∑ e ∈ Finset.univ.filter (fun e : Fin 160000 => (node dst e).val = d'.val ∧ (node src e).val = s.val),
          nor (ix1 (node src e)) * nir (ix1 (node dst e)) : ℝ) : EReal) := by
    intro s
    rw [coe_sum]
    simp only [EReal.coe_mul, ← hnor, ← hnir]
    rfl
  have hP : ∀ s : Fin 10240, pad X (ix2 s g) =
      ((if hs : s.val < 10000 then xr (ix2 ⟨s.val, hs⟩ g) else 0 : ℝ) : EReal) := by
    intro s
    by_cases hs : s.val < 10000
    · rw [dif_pos hs, ← hxr]
      exact dif_pos hs
    · rw [dif_neg hs]
      exact dif_neg hs
  have hG : agg X no ni src dst ⟨d'.val, h⟩ g =
      (((∑ e ∈ Finset.univ.filter (fun e : Fin 160000 => node dst e = ⟨d'.val, h⟩),
          xr (ix2 (node src e) g) * nor (ix1 (node src e))) * nir (ix1 ⟨d'.val, h⟩) : ℝ) : EReal) := by
    rw [EReal.coe_mul, coe_sum]
    simp only [EReal.coe_mul, ← hnor, ← hnir, ← hxr]
    rfl
  rw [hG, ← bridge_real xr nor nir src dst d' h g, coe_sum]
  refine Finset.sum_congr rfl fun s _ => ?_
  rw [hA, hP, EReal.coe_mul]

/-- On reals the matrix form is the edge-wise form: the sum over sources regroups into the sum over edges by distributivity. -/
theorem layerK_pad (relu : Bool) (X : SND.Idx → EReal) (W : SDD.Idx → EReal) (b : SD.Idx → EReal) (no ni : SN.Idx → EReal)
    (src dst : SE.Idx → BitVec 32) (hX : IsReal X) (hno : IsReal no) (hni : IsReal ni) :
    layerK relu (adjOf no ni src dst) (pad X) W b = pad (fun i => act relu (layer X W b no ni src dst i)) := by
  funext i
  obtain ⟨p, q, rfl⟩ : ∃ (p : Fin 10240) (q : Fin 512), i = ix2 p q := ⟨i 0, i 1, eq_ix2 i⟩
  by_cases h : p.val < 10000
  · have e1 : layerK relu (adjOf no ni src dst) (pad X) W b (ix2 p q) =
        act relu ((∑ g : Fin 512, (∑ s : Fin 10240, adjOf no ni src dst (ix2 p s) * pad X (ix2 s g)) * W (ix2 g q))
          + b (ix1 q)) := if_pos h
    have e2 : pad (fun i => act relu (layer X W b no ni src dst i)) (ix2 p q) =
        act relu ((∑ g : Fin 512, agg X no ni src dst ⟨p.val, h⟩ g * W (ix2 g q)) + b (ix1 q)) := dif_pos h
    rw [e1, e2]
    simp only [inner_eq X no ni src dst hX hno hni p h]
  · have e1 : layerK relu (adjOf no ni src dst) (pad X) W b (ix2 p q) = 0 := if_neg h
    have e2 : pad (fun i => act relu (layer X W b no ni src dst i)) (ix2 p q) = 0 := dif_neg h
    rw [e1, e2]

theorem layer_real (relu : Bool) (X : SND.Idx → EReal) (W : SDD.Idx → EReal) (b : SD.Idx → EReal) (no ni : SN.Idx → EReal)
    (src dst : SE.Idx → BitVec 32) (hX : IsReal X) (hW : IsReal W) (hb : IsReal b) (hno : IsReal no) (hni : IsReal ni) :
    IsReal (fun i => act relu (layer X W b no ni src dst i)) := by
  intro i
  have hl : ∃ r : ℝ, layer X W b no ni src dst i = (r : EReal) :=
    real_add (real_sum _ _ fun _ _ => real_mul (agg_real X no ni src dst hX hno hni _ _) (hW _)) (hb _)
  cases relu
  · exact hl
  · exact real_max_zero hl

end Cert.GraphConv

end
-- ==== Proof.KValue.lean ====
import proofs.«413367_j60610578482006_3_alg».proof.Proof.KFrame
import proofs.«413367_j60610578482006_3_alg».proof.Proof.R0Value
import proofs.«413367_j60610578482006_3_alg».proof.Proof.R1Value
import proofs.«413367_j60610578482006_3_alg».proof.Proof.R2Value
import proofs.«413367_j60610578482006_3_alg».proof.Proof.KHostAdj
import proofs.«413367_j60610578482006_3_alg».proof.Proof.KHostIn
import proofs.«413367_j60610578482006_3_alg».proof.Proof.Bridge
import Idealize.ShloMosaic.Lib.StableHlo.Run

set_option maxRecDepth 16384

noncomputable section

namespace Cert.KernelIdeal.Fr

open Cert.KernelIdeal Cert.KernelIdeal.Gen Cert.GraphConv Cert.KernelIdeal.KMath
open Idealize.ShloMosaic Idealize.ShloMosaic.TcCoe Idealize.ShloMosaic.ValueIdx
open Idealize.SL.Sem
open Idealize.ShloMosaic.Pipeline (Dat)
open scoped BigOperators

open Cert.KernelIdeal.KHost

variable (m : (ℓ : Loc nD τ sig) → Buf (Elt Ideal) ℓ) (c : Dev nD)

abbrev kno : SN.Idx → EReal := normOf (F := Ideal) (aSrc m c)
abbrev kni : SN.Idx → EReal := normOf (F := Ideal) (aDst m c)

abbrev kadj : SPP.Idx → EReal := adjOf (kno m c) (kni m c) (aSrc m c) (aDst m c)

theorem bias_row (B : (⟨2, ![1, 512]⟩ : Shape).Idx → EReal) (b : SD.Idx → EReal) (h : B = fun j => b (ix1 (j 1))) :
    (fun j : SD.Idx => B (ix2 0 (j 0))) = b := by
  funext j
  rw [h]
  exact congrArg b (eq_ix1 j).symm

theorem reg0_out (hs : InRange (aSrc m c)) (hd : InRange (aDst m c)) (hX : IsReal (s := SND) (aX m c)) :
    (E1 m c main_v55 : SPD.Idx → EReal)
      = pad (h1 (aX m c) (aW1 m c) (aB1 m c) (kno m c) (kni m c) (aSrc m c) (aDst m c)) := by
  have hA : opA0 (E0 m) c = kadj m c := V5_adj m c hs hd
  have hXp : opX0 (E0 m) c = pad (aX m c) := V5_x0 m c
  have hW : opW0 (E0 m) c = aW1 m c := V5_w1 m c
  have hB : (fun j : SD.Idx => opB0 (E0 m) c (ix2 0 (j 0))) = aB1 m c := bias_row _ _ (V5_b1 m c)
  refine (W6_arr m c 4).trans ?_
  rw [final0]
  unfold G0
  rw [hA, hXp, hW, hB]
  exact layerK_pad true (aX m c) (aW1 m c) (aB1 m c) (kno m c) (kni m c) (aSrc m c) (aDst m c) hX (normOf_real _) (normOf_real _)

theorem E1_adj : (E1 m c main_v44 : SPP.Idx → EReal) = E0 m c main_v44 := by
  exact (W6_arr m c 0).trans (((dat0 (E0 m) c).arrAt_in 0 rfl _).trans (A_eq0 (E0 m) c 0))
theorem E1_keep (b : Ref sig .tc) (hb : ∀ w, Pipeline.arrRef spec0 w ≠ b) : E1 m c b = E0 m c b := W6_of_ne m c b hb

theorem reg1_ops (hs : InRange (aSrc m c)) (hd : InRange (aDst m c)) (hX : IsReal (s := SND) (aX m c)) :
    opA1 (E1 m) c = kadj m c
      ∧ opX1 (E1 m) c = pad (h1 (aX m c) (aW1 m c) (aB1 m c) (kno m c) (kni m c) (aSrc m c) (aDst m c))
      ∧ opW1 (E1 m) c = aW2 m c
      ∧ (fun j : SD.Idx => opB1 (E1 m) c (ix2 0 (j 0))) = aB2 m c :=
  ⟨(E1_adj m c).trans (V5_adj m c hs hd), reg0_out m c hs hd hX,
    (E1_keep m c main_v50 (by decide)).trans (V5_w2 m c),
    bias_row _ _ ((E1_keep m c main_v53 (by decide)).trans (V5_b2 m c))⟩

theorem reg1_out (hs : InRange (aSrc m c)) (hd : InRange (aDst m c)) (hX : IsReal (s := SND) (aX m c))
    (hW1 : IsReal (s := SDD) (aW1 m c)) (hB1 : IsReal (s := SD) (aB1 m c)) :
    (E2 m c main_v56_0 : SPD.Idx → EReal) = pad (h2 (aX m c) (aW1 m c) (aB1 m c) (aW2 m c) (aB2 m c) (kno m c) (kni m c) (aSrc m c) (aDst m c))
      ∧ (E2 m c main_v56_1 : SPD.Idx → EReal) = pad (h2 (aX m c) (aW1 m c) (aB1 m c) (aW2 m c) (aB2 m c) (kno m c) (kni m c) (aSrc m c) (aDst m c)) := by
  obtain ⟨hA, hXp, hW, hB⟩ := reg1_ops m c hs hd hX
  have hh1 : IsReal (s := SND) (h1 (aX m c) (aW1 m c) (aB1 m c) (kno m c) (kni m c) (aSrc m c) (aDst m c)) :=
    layer_real true _ _ _ _ _ _ _ hX hW1 hB1 (normOf_real _) (normOf_real _)
  have hG : G1 (E1 m) c = pad (h2 (aX m c) (aW1 m c) (aB1 m c) (aW2 m c) (aB2 m c) (kno m c) (kni m c) (aSrc m c) (aDst m c)) := by
    unfold G1
    rw [hA, hXp, hW, hB]
    exact layerK_pad true _ (aW2 m c) (aB2 m c) (kno m c) (kni m c) (aSrc m c) (aDst m c) hh1 (normOf_real _) (normOf_real _)
  constructor
  · refine (W7_arr m c 4).trans ?_
    rw [final1_4, hG]
  · refine (W7_arr m c 5).trans ?_
    rw [final1_5, hG]

theorem E2_adj : (E2 m c main_v44 : SPP.Idx → EReal) = E1 m c main_v44 := by
  exact (W7_arr m c 0).trans (((dat1 (E1 m) c).arrAt_in 0 rfl _).trans (A_eq1 (E1 m) c 0))
theorem E2_w2 : (E2 m c main_v50 : SDD.Idx → EReal) = E1 m c main_v50 := by
  exact (W7_arr m c 2).trans (((dat1 (E1 m) c).arrAt_in 2 rfl _).trans (A_eq1 (E1 m) c 2))
theorem E2_b2 : (E2 m c main_v53 : (⟨2, ![1, 512]⟩ : Shape).Idx → EReal) = E1 m c main_v53 := by
  exact (W7_arr m c 3).trans (((dat1 (E1 m) c).arrAt_in 3 rfl _).trans (A_eq1 (E1 m) c 3))
theorem E2_keep (b : Ref sig .tc) (hb : ∀ w, Pipeline.arrRef spec1 w ≠ b) : E2 m c b = E1 m c b := W7_of_ne m c b hb

theorem reg2_out (hs : InRange (aSrc m c)) (hd : InRange (aDst m c)) (hX : IsReal (s := SND) (aX m c))
    (hW1 : IsReal (s := SDD) (aW1 m c)) (hB1 : IsReal (s := SD) (aB1 m c)) (hW2 : IsReal (s := SDD) (aW2 m c)) (hB2 : IsReal (s := SD) (aB2 m c)) :
    (E3 m c main_v57_0 : SPD.Idx → EReal) = pad (h3 (aX m c) (aW1 m c) (aB1 m c) (aW2 m c) (aB2 m c) (kno m c) (kni m c) (aSrc m c) (aDst m c))
      ∧ (E3 m c main_v57_1 : SPD.Idx → EReal) = pad (h4 (aX m c) (aW1 m c) (aB1 m c) (aW2 m c) (aB2 m c) (aW3 m c) (aB3 m c) (kno m c) (kni m c) (aSrc m c) (aDst m c)) := by
  have hh1 : IsReal (s := SND) (h1 (aX m c) (aW1 m c) (aB1 m c) (kno m c) (kni m c) (aSrc m c) (aDst m c)) :=
    layer_real true _ _ _ _ _ _ _ hX hW1 hB1 (normOf_real _) (normOf_real _)
  have hh2 : IsReal (s := SND) (h2 (aX m c) (aW1 m c) (aB1 m c) (aW2 m c) (aB2 m c) (kno m c) (kni m c) (aSrc m c) (aDst m c)) :=
    layer_real true _ _ _ _ _ _ _ hh1 hW2 hB2 (normOf_real _) (normOf_real _)
  have hA : opA2 (E2 m) c = kadj m c := (E2_adj m c).trans ((E1_adj m c).trans (V5_adj m c hs hd))
  have hXp : opX2 (E2 m) c = pad (h2 (aX m c) (aW1 m c) (aB1 m c) (aW2 m c) (aB2 m c) (kno m c) (kni m c) (aSrc m c) (aDst m c)) :=
    (reg1_out m c hs hd hX hW1 hB1).2
  have hWa : opW2a (E2 m) c = aW2 m c := (E2_w2 m c).trans ((E1_keep m c main_v50 (by decide)).trans (V5_w2 m c))
  have hBa : (fun j : SD.Idx => opB2a (E2 m) c (ix2 0 (j 0))) = aB2 m c :=
    bias_row _ _ ((E2_b2 m c).trans ((E1_keep m c main_v53 (by decide)).trans (V5_b2 m c)))
  have hWb : opW2b (E2 m) c = aW3 m c := (E2_keep m c main_v51 (by decide)).trans ((E1_keep m c main_v51 (by decide)).trans (V5_w3 m c))
  have hBb : (fun j : SD.Idx => opB2b (E2 m) c (ix2 0 (j 0))) = aB3 m c :=
    bias_row _ _ ((E2_keep m c main_v54 (by decide)).trans ((E1_keep m c main_v54 (by decide)).trans (V5_b3 m c)))
  constructor
  · refine (W8_arr m c 6).trans ?_
    rw [final2_6]
    unfold G2a
    rw [hA, hXp, hWa, hBa]
    exact layerK_pad true _ (aW2 m c) (aB2 m c) (kno m c) (kni m c) (aSrc m c) (aDst m c) hh2 (normOf_real _) (normOf_real _)
  · refine (W8_arr m c 7).trans ?_
    rw [final2_7]
    unfold G2b
    rw [hA, hXp, hWb, hBb]
    exact layerK_pad false _ (aW3 m c) (aB3 m c) (kno m c) (kni m c) (aSrc m c) (aDst m c) hh2 (normOf_real _) (normOf_real _)

theorem E3_keep (b : Ref sig .tc) (hb : ∀ w, Pipeline.arrRef spec2 w ≠ b) : E3 m c b = E2 m c b := W8_of_ne m c b hb

/-- Each region's array is the layer of its operands through the dense matrix, which on reals is the edge-wise layer. -/
theorem results (hs : InRange (aSrc m c)) (hd : InRange (aDst m c)) (hX : IsReal (s := SND) (aX m c))
    (hW1 : IsReal (s := SDD) (aW1 m c)) (hB1 : IsReal (s := SD) (aB1 m c)) (hW2 : IsReal (s := SDD) (aW2 m c)) (hB2 : IsReal (s := SD) (aB2 m c)) :
    (W9 m c main_v58 : SND.Idx → EReal) = h4 (aX m c) (aW1 m c) (aB1 m c) (aW2 m c) (aB2 m c) (aW3 m c) (aB3 m c) (kno m c) (kni m c) (aSrc m c) (aDst m c)
      ∧ (W9 m c main_v59 : SND.Idx → EReal) = h3 (aX m c) (aW1 m c) (aB1 m c) (aW2 m c) (aB2 m c) (kno m c) (kni m c) (aSrc m c) (aDst m c)
      ∧ (W9 m c main_v60 : SND.Idx → EReal) = h2 (aX m c) (aW1 m c) (aB1 m c) (aW2 m c) (aB2 m c) (kno m c) (kni m c) (aSrc m c) (aDst m c) := by
  obtain ⟨r3, r4⟩ := reg2_out m c hs hd hX hW1 hB1 hW2 hB2
  have r2 : (E3 m c main_v56_0 : SPD.Idx → EReal) = pad (h2 (aX m c) (aW1 m c) (aB1 m c) (aW2 m c) (aB2 m c) (kno m c) (kni m c) (aSrc m c) (aDst m c)) :=
    (E3_keep m c main_v56_0 (by decide)).trans (reg1_out m c hs hd hX hW1 hB1).1
  have e58 : (W9 m c main_v58 : SND.Idx → EReal) = extractStridedSlice S10000x512 ![0, 0] (E3 m c main_v57_1 : FVec Ideal S10240x512 .f32) Facts₀.slices_S10240x512_S10000x512_0_0 := by
    show StableHlo.after hostOps3 (W8 m c) (Proc.devRef .tc main_v58) = _
    after_results
  have e59 : (W9 m c main_v59 : SND.Idx → EReal) = extractStridedSlice S10000x512 ![0, 0] (E3 m c main_v57_0 : FVec Ideal S10240x512 .f32) Facts₀.slices_S10240x512_S10000x512_0_0 := by
    show StableHlo.after hostOps3 (W8 m c) (Proc.devRef .tc main_v59) = _
    after_results
  have e60 : (W9 m c main_v60 : SND.Idx → EReal) = extractStridedSlice S10000x512 ![0, 0] (E3 m c main_v56_0 : FVec Ideal S10240x512 .f32) Facts₀.slices_S10240x512_S10000x512_0_0 := by
    show StableHlo.after hostOps3 (W8 m c) (Proc.devRef .tc main_v60) = _
    after_results
  refine ⟨?_, ?_, ?_⟩
  · rw [e58, r4]; exact slice_pad _
  · rw [e59, r3]; exact slice_pad _
  · rw [e60, r2]; exact slice_pad _

end Cert.KernelIdeal.Fr

end
-- ==== Proof.RefLayer.lean ====
import proofs.«413367_j60610578482006_3_alg».proof.Proof.Gen.ReferenceIdeal
import proofs.«413367_j60610578482006_3_alg».proof.Proof.Spec
import Idealize.ShloMosaic.Lib.ValueIdx
import Idealize.ShloMosaic.Lib.Pipeline.Value
import Idealize.ShloMosaic.PureOps.Ideal.Laws

noncomputable section

namespace Cert.ReferenceIdeal.RefLayer

open Cert.ReferenceIdeal Cert.ReferenceIdeal.Gen Cert.GraphConv
open Idealize.ShloMosaic Idealize.ShloMosaic.ValueIdx Idealize.ShloMosaic.StableHlo
open scoped BigOperators

theorem toNat_eq_toInt (w : BitVec 32) (h0 : 0 ≤ w.toInt) : (w.toNat : Int) = w.toInt := by
  have h := BitVec.toInt_eq_toNat_cond w
  have := w.isLt
  split at h <;> omega

variable {α : Type}

theorem gather_row (x : S10000x512.Idx → α) (idx : IVec S160000x1 32) (e : Fin 160000) (g : Fin 512)
    (r : Fin 10000) (hr : r.val = min (idx (ix2 e (0 : Fin 1))).toInt.toNat 9999) :
    Host.gather gather_S10000x512_S160000x1_S160000x512_1_0_n_n_0_1_1512 x idx (ix2 e g) = x (ix2 r g) := by
  unfold Host.gather
  congr 1
  funext a
  refine Fin.ext ?_
  match a with
  | ⟨0, _⟩ =>
    show gather_S10000x512_S160000x1_S160000x512_1_0_n_n_0_1_1512.start (ix2 e g) idx 0
      + gather_S10000x512_S160000x1_S160000x512_1_0_n_n_0_1_1512.batchCoord (ix2 e g) 0
      + gather_S10000x512_S160000x1_S160000x512_1_0_n_n_0_1_1512.offCoord (ix2 e g) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x512_S160000x1_S160000x512_1_0_n_n_0_1_1512.startIndexMap from List.mem_singleton.mpr rfl)]
    have hsi : gather_S10000x512_S160000x1_S160000x512_1_0_n_n_0_1_1512.siIdx (ix2 e g)
        ⟨List.idxOf (0 : Fin 2) gather_S10000x512_S160000x1_S160000x512_1_0_n_n_0_1_1512.startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    exact hr.symm
  | ⟨1, _⟩ =>
    show gather_S10000x512_S160000x1_S160000x512_1_0_n_n_0_1_1512.start (ix2 e g) idx 1
      + gather_S10000x512_S160000x1_S160000x512_1_0_n_n_0_1_1512.batchCoord (ix2 e g) 1
      + gather_S10000x512_S160000x1_S160000x512_1_0_n_n_0_1_1512.offCoord (ix2 e g) 1 = _
    rw [GatherDims.batchCoord_eq_zero _ _ _ List.not_mem_nil]
    unfold GatherDims.start
    rw [dif_neg (show ¬ (1 : Fin 2) ∈ gather_S10000x512_S160000x1_S160000x512_1_0_n_n_0_1_1512.startIndexMap by decide)]
    simp only [Nat.add_zero, Nat.zero_add]
    rfl

theorem scatter_start0 (idx : IVec S160000x1 32) (e : Fin 160000) (g : Fin 512) :
    scatter_S10000x512_S160000x1_S160000x512_1_0_0_1.start (ix2 e g) idx 0 = (idx (ix2 e 0)).toInt := by
  unfold ScatterDims.start
  rw [dif_pos (show (0 : Fin 2) ∈ scatter_S10000x512_S160000x1_S160000x512_1_0_0_1.scatterDimsToOperandDims from List.mem_singleton.mpr rfl)]
  have hsi : scatter_S10000x512_S160000x1_S160000x512_1_0_0_1.siIdx (ix2 e g)
      ⟨List.idxOf (0 : Fin 2) scatter_S10000x512_S160000x1_S160000x512_1_0_0_1.scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

theorem scatter_start1 (idx : IVec S160000x1 32) (e : Fin 160000) (g : Fin 512) :
    scatter_S10000x512_S160000x1_S160000x512_1_0_0_1.start (ix2 e g) idx 1 = 0 := by
  unfold ScatterDims.start
  rw [dif_neg (show ¬ (1 : Fin 2) ∈ scatter_S10000x512_S160000x1_S160000x512_1_0_0_1.scatterDimsToOperandDims by decide)]

theorem scatter_window0 (e : Fin 160000) (g : Fin 512) :
    scatter_S10000x512_S160000x1_S160000x512_1_0_0_1.window (ix2 e g) 0 = 0 := by
  unfold ScatterDims.window
  rw [dif_neg (show ¬ (0 : Fin 2) ∈ scatter_S10000x512_S160000x1_S160000x512_1_0_0_1.sKept by decide)]

theorem scatter_window1 (e : Fin 160000) (g : Fin 512) :
    scatter_S10000x512_S160000x1_S160000x512_1_0_0_1.window (ix2 e g) 1 = g.val := by
  unfold ScatterDims.window
  rw [dif_pos (show (1 : Fin 2) ∈ scatter_S10000x512_S160000x1_S160000x512_1_0_0_1.sKept by decide)]
  rfl

theorem scatter_lands (idx : IVec S160000x1 32) (e : Fin 160000) (g : Fin 512) (k : Fin 10000) (f : Fin 512) :
    scatter_S10000x512_S160000x1_S160000x512_1_0_0_1.resultIdx? (ix2 e g) idx = some (ix2 k f)
      ↔ (idx (ix2 e 0)).toInt = (k.val : Int) ∧ g = f := by
  unfold ScatterDims.resultIdx?
  split
  · rename_i h
    rw [Option.some.injEq]
    constructor
    · intro hEq
      have h0 := congrArg (fun i : S10000x512.Idx => (i 0).val) hEq
      have h1 := congrArg (fun i : S10000x512.Idx => (i 1).val) hEq
      simp only [scatter_start0, scatter_start1, scatter_window0, scatter_window1] at h0 h1
      have hh := h 0
      simp only [scatter_start0, scatter_window0] at hh
      refine ⟨?_, Fin.ext ?_⟩
      · have : ((ix2 k f : S10000x512.Idx) 0).val = k.val := rfl
        omega
      · have : ((ix2 k f : S10000x512.Idx) 1).val = f.val := rfl
        omega
    · rintro ⟨hk, rfl⟩
      funext a
      refine Fin.ext ?_
      match a with
      | ⟨0, _⟩ =>
        show (scatter_S10000x512_S160000x1_S160000x512_1_0_0_1.start (ix2 e g) idx 0
          + scatter_S10000x512_S160000x1_S160000x512_1_0_0_1.window (ix2 e g) 0).toNat = k.val
        rw [scatter_start0, scatter_window0]; omega
      | ⟨1, _⟩ =>
        show (scatter_S10000x512_S160000x1_S160000x512_1_0_0_1.start (ix2 e g) idx 1
          + scatter_S10000x512_S160000x1_S160000x512_1_0_0_1.window (ix2 e g) 1).toNat = g.val
        rw [scatter_start1, scatter_window1]; omega
  · rename_i h
    constructor
    · intro hh; exact absurd hh (by simp)
    · rintro ⟨hk, rfl⟩
      exfalso; apply h
      intro a
      match a with
      | ⟨0, _⟩ =>
        show 0 ≤ scatter_S10000x512_S160000x1_S160000x512_1_0_0_1.start (ix2 e g) idx 0
          + scatter_S10000x512_S160000x1_S160000x512_1_0_0_1.window (ix2 e g) 0 ∧
          scatter_S10000x512_S160000x1_S160000x512_1_0_0_1.start (ix2 e g) idx 0
          + scatter_S10000x512_S160000x1_S160000x512_1_0_0_1.window (ix2 e g) 0 < (10000 : Nat)
        rw [scatter_start0, scatter_window0]
        have := k.isLt; omega
      | ⟨1, _⟩ =>
        show 0 ≤ scatter_S10000x512_S160000x1_S160000x512_1_0_0_1.start (ix2 e g) idx 1
          + scatter_S10000x512_S160000x1_S160000x512_1_0_0_1.window (ix2 e g) 1 ∧
          scatter_S10000x512_S160000x1_S160000x512_1_0_0_1.start (ix2 e g) idx 1
          + scatter_S10000x512_S160000x1_S160000x512_1_0_0_1.window (ix2 e g) 1 < (512 : Nat)
        rw [scatter_start1, scatter_window1]
        have := g.isLt; omega

theorem bcast_node (v : S10000.Idx → α) (d : Fin 10000) (g : Fin 512) :
    broadcastInDim S10000x512 ![0, 1] bcast_S10000x1_S10000x512_0_1 (broadcastInDim S10000x1 ![0] bcast_S10000_S10000x1_0 v) (ix2 d g)
      = v (ix1 d) := by
  rw [broadcastInDim_apply _ bcast_S10000x1_S10000x512_0_1 _ (ix2 d g) (ix2 d (0 : Fin 1)) (fun a => match a with
    | ⟨0, _⟩ => by show d.val = if (10000 : Nat) = 1 then 0 else d.val; rw [if_neg (by decide)]
    | ⟨1, _⟩ => by show 0 = if (1 : Nat) = 1 then 0 else g.val; rw [if_pos rfl])]
  exact broadcastInDim_apply _ bcast_S10000_S10000x1_0 v (ix2 d (0 : Fin 1)) (ix1 d) (fun a => match a with
    | ⟨0, _⟩ => by show d.val = if (10000 : Nat) = 1 then 0 else d.val; rw [if_neg (by decide)])

theorem bcast_feat (v : S512.Idx → α) (d : Fin 10000) (f : Fin 512) :
    broadcastInDim S10000x512 ![0, 1] bcast_S1x512_S10000x512_0_1 (broadcastInDim S1x512 ![1] bcast_S512_S1x512_1 v) (ix2 d f)
      = v (ix1 f) := by
  rw [broadcastInDim_apply _ bcast_S1x512_S10000x512_0_1 _ (ix2 d f) (ix2 (0 : Fin 1) f) (fun a => match a with
    | ⟨0, _⟩ => by show 0 = if (1 : Nat) = 1 then 0 else d.val; rw [if_pos rfl]
    | ⟨1, _⟩ => by show f.val = if (512 : Nat) = 1 then 0 else f.val; rw [if_neg (by decide)])]
  exact broadcastInDim_apply _ bcast_S512_S1x512_1 v (ix2 (0 : Fin 1) f) (ix1 f) (fun a => match a with
    | ⟨0, _⟩ => by show f.val = if (512 : Nat) = 1 then 0 else f.val; rw [if_neg (by decide)])

theorem bcast_edge (v : S160000.Idx → α) (e : Fin 160000) :
    broadcastInDim S160000x1 ![0] bcast_S160000_S160000x1_0 v (ix2 e (0 : Fin 1)) = v (ix1 e) :=
  broadcastInDim_apply _ bcast_S160000_S160000x1_0 v (ix2 e (0 : Fin 1)) (ix1 e) (fun a => match a with
    | ⟨0, _⟩ => by show e.val = if (160000 : Nat) = 1 then 0 else e.val; rw [if_neg (by decide)])

theorem dot_lhs0 (i : S10000x512.Idx) (q : dot_S10000x512_S512x512_S10000x512_1_0_0_1_n_n.contr.Idx) :
    (dot_S10000x512_S512x512_S10000x512_1_0_0_1_n_n.lhsIdx i q 0).val = (i 0).val := by
  unfold DotDims.lhsIdx
  rw [dif_neg (show ¬(0 : Fin S10000x512.rank) ∈ dot_S10000x512_S512x512_S10000x512_1_0_0_1_n_n.lhsBatch by decide),
    dif_pos (show (0 : Fin S10000x512.rank) ∈ dot_S10000x512_S512x512_S10000x512_1_0_0_1_n_n.lhsNonContracting by decide)]
  rfl

theorem dot_lhs1 (i : S10000x512.Idx) (q : dot_S10000x512_S512x512_S10000x512_1_0_0_1_n_n.contr.Idx) :
    (dot_S10000x512_S512x512_S10000x512_1_0_0_1_n_n.lhsIdx i q 1).val = (q ⟨0, by decide⟩).val :=
  dot_S10000x512_S512x512_S10000x512_1_0_0_1_n_n.lhsIdx_val_of_single rfl i q

theorem dot_rhs0 (i : S10000x512.Idx) (q : dot_S10000x512_S512x512_S10000x512_1_0_0_1_n_n.contr.Idx) :
    (dot_S10000x512_S512x512_S10000x512_1_0_0_1_n_n.rhsIdx i q 0).val = (q ⟨0, by decide⟩).val :=
  dot_S10000x512_S512x512_S10000x512_1_0_0_1_n_n.rhsIdx_val_of_single rfl i q

theorem dot_rhs1 (i : S10000x512.Idx) (q : dot_S10000x512_S512x512_S10000x512_1_0_0_1_n_n.contr.Idx) :
    (dot_S10000x512_S512x512_S10000x512_1_0_0_1_n_n.rhsIdx i q 1).val = (i 1).val := by
  unfold DotDims.rhsIdx
  rw [dif_neg (show ¬(1 : Fin S512x512.rank) ∈ dot_S10000x512_S512x512_S10000x512_1_0_0_1_n_n.rhsBatch by decide),
    dif_pos (show (1 : Fin S512x512.rank) ∈ dot_S10000x512_S512x512_S10000x512_1_0_0_1_n_n.rhsNonContracting by decide)]
  rfl

theorem dot_apply (L : FVec Ideal S10000x512 .f32) (R : FVec Ideal S512x512 .f32) (d : Fin 10000) (f : Fin 512) :
    Host.dotGeneral dot_S10000x512_S512x512_S10000x512_1_0_0_1_n_n none L R (ix2 d f)
      = ∑ k : Fin 512, L (ix2 d k) * R (ix2 k f) := by
  simp only [Host.dotGeneral]
  rw [Ideal.dotGeneral_apply, ← Equiv.sum_comp (ValueIdx.contrEquiv1 dot_S10000x512_S512x512_S10000x512_1_0_0_1_n_n 512 rfl rfl).symm]
  refine Finset.sum_congr rfl fun k _ => ?_
  have hk := ValueIdx.contrEquiv1_symm_val dot_S10000x512_S512x512_S10000x512_1_0_0_1_n_n 512 rfl rfl k
  have el : dot_S10000x512_S512x512_S10000x512_1_0_0_1_n_n.lhsIdx (ix2 d f)
      ((ValueIdx.contrEquiv1 dot_S10000x512_S512x512_S10000x512_1_0_0_1_n_n 512 rfl rfl).symm k) = ix2 d k :=
    funext fun a => Fin.ext (by
      match a with
      | ⟨0, _⟩ => exact dot_lhs0 _ _
      | ⟨1, _⟩ => exact (dot_lhs1 _ _).trans hk)
  have er : dot_S10000x512_S512x512_S10000x512_1_0_0_1_n_n.rhsIdx (ix2 d f)
      ((ValueIdx.contrEquiv1 dot_S10000x512_S512x512_S10000x512_1_0_0_1_n_n 512 rfl rfl).symm k) = ix2 k f :=
    funext fun a => Fin.ext (by
      match a with
      | ⟨0, _⟩ => exact (dot_rhs0 _ _).trans hk
      | ⟨1, _⟩ => exact dot_rhs1 _ _)
  rw [el, er]

def refLayer (X : FVec Ideal S10000x512 .f32) (W : FVec Ideal S512x512 .f32) (b : FVec Ideal S512 .f32)
    (no ni : FVec Ideal S10000 .f32) (src dst : IVec S160000 32) : FVec Ideal S10000x512 .f32 :=
  addf
    (Host.dotGeneral dot_S10000x512_S512x512_S10000x512_1_0_0_1_n_n none
      (mulf
        (Host.scatterAdd scatter_S10000x512_S160000x1_S160000x512_1_0_0_1
          (broadcastInDim S10000x512 ![] bcast_S_S10000x512 (constant S_ .f32 0x00000000#32))
          (broadcastInDim S160000x1 ![0] bcast_S160000_S160000x1_0 dst)
          (Host.gather gather_S10000x512_S160000x1_S160000x512_1_0_n_n_0_1_1512
            (mulf X (broadcastInDim S10000x512 ![0, 1] bcast_S10000x1_S10000x512_0_1
              (broadcastInDim S10000x1 ![0] bcast_S10000_S10000x1_0 no)))
            (broadcastInDim S160000x1 ![0] bcast_S160000_S160000x1_0
              (select (cmpi .slt src (broadcastInDim S160000 ![] bcast_S_S160000 (constantI S_ 32 0#32)))
                (addi src (broadcastInDim S160000 ![] bcast_S_S160000 (constantI S_ 32 10000#32))) src))))
        (broadcastInDim S10000x512 ![0, 1] bcast_S10000x1_S10000x512_0_1
          (broadcastInDim S10000x1 ![0] bcast_S10000_S10000x1_0 ni)))
      W)
    (broadcastInDim S10000x512 ![0, 1] bcast_S1x512_S10000x512_0_1 (broadcastInDim S1x512 ![1] bcast_S512_S1x512_1 b))

theorem node_val (idx : SE.Idx → BitVec 32) (h : InRange idx) (e : Fin 160000) :
    ((node idx e).val : Int) = (idx (ix1 e)).toInt := by
  have h1 := h e
  have h2 := toNat_eq_toInt _ h1.1
  show ((min (idx (ix1 e)).toNat 9999 : Nat) : Int) = _
  omega

theorem wrap_id (src : IVec S160000 32) (hs : InRange src) (e : Fin 160000) :
    select (cmpi .slt src (broadcastInDim S160000 ![] bcast_S_S160000 (constantI S_ 32 0#32)))
      (addi src (broadcastInDim S160000 ![] bcast_S_S160000 (constantI S_ 32 10000#32))) src (ix1 e) = src (ix1 e) := by
  show Scalar.select (BitVec.ofBool ((src (ix1 e)).slt 0#32)) _ _ = _
  have h1 := (hs e).1
  have : (src (ix1 e)).slt 0#32 = false := by
    rw [BitVec.slt]; simp only [BitVec.toInt_zero]; exact decide_eq_false (by omega)
  rw [this]
  exact select_zero _ _

theorem scatter_rows (idxw : IVec S160000 32) (hd : InRange idxw) (upd : FVec Ideal S160000x512 .f32) (d : Fin 10000) (g : Fin 512) :
    Host.scatterAdd scatter_S10000x512_S160000x1_S160000x512_1_0_0_1
        (broadcastInDim S10000x512 ![] bcast_S_S10000x512 (constant S_ .f32 0x00000000#32))
        (broadcastInDim S160000x1 ![0] bcast_S160000_S160000x1_0 idxw) upd (ix2 d g)
      = ∑ e ∈ Finset.univ.filter (fun e : Fin 160000 => node idxw e = d), upd (ix2 e g) := by
  show Ideal.ofBits .f32 0x00000000#32 + ∑ j ∈ Finset.univ.filter (fun j =>
      scatter_S10000x512_S160000x1_S160000x512_1_0_0_1.resultIdx? j (broadcastInDim S160000x1 ![0] bcast_S160000_S160000x1_0 idxw) = some (ix2 d g)), upd j = _
  rw [Ideal.ofBits_zero_f32, zero_add, Finset.sum_filter, sum_idx2, Finset.sum_filter]
  refine Finset.sum_congr rfl fun e _ => ?_
  have hiff : ∀ g' : Fin 512, (scatter_S10000x512_S160000x1_S160000x512_1_0_0_1.resultIdx? (ix2 e g')
      (broadcastInDim S160000x1 ![0] bcast_S160000_S160000x1_0 idxw) = some (ix2 d g)) ↔ (node idxw e = d ∧ g' = g) := by
    intro g'
    rw [scatter_lands, bcast_edge, ← node_val idxw hd e]
    constructor
    · rintro ⟨h1, h2⟩; exact ⟨Fin.ext (by omega), h2⟩
    · rintro ⟨h1, h2⟩; exact ⟨by rw [h1], h2⟩
  simp only [hiff]
  by_cases hn : node idxw e = d
  · simp [hn]
  · simp [hn]

theorem gather_rows (Y : FVec Ideal S10000x512 .f32) (src : IVec S160000 32) (hs : InRange src) (e : Fin 160000) (g : Fin 512) :
    Host.gather gather_S10000x512_S160000x1_S160000x512_1_0_n_n_0_1_1512 Y
        (broadcastInDim S160000x1 ![0] bcast_S160000_S160000x1_0
          (select (cmpi .slt src (broadcastInDim S160000 ![] bcast_S_S160000 (constantI S_ 32 0#32)))
            (addi src (broadcastInDim S160000 ![] bcast_S_S160000 (constantI S_ 32 10000#32))) src)) (ix2 e g)
      = Y (ix2 (node src e) g) := by
  refine gather_row Y _ e g (node src e) ?_
  rw [bcast_edge, wrap_id src hs e]
  have h1 := (hs e).1
  have h2 := toNat_eq_toInt _ h1
  show min (src (ix1 e)).toNat 9999 = _
  omega

theorem refLayer_eq (X : FVec Ideal S10000x512 .f32) (W : FVec Ideal S512x512 .f32) (b : FVec Ideal S512 .f32)
    (no ni : FVec Ideal S10000 .f32) (src dst : IVec S160000 32) (hs : InRange src) (hd : InRange dst) :
    refLayer X W b no ni src dst = layer X W b no ni src dst := by
  funext i
  obtain ⟨d, f, rfl⟩ : ∃ (d : Fin 10000) (f : Fin 512), i = ix2 d f := ⟨i 0, i 1, eq_ix2 i⟩
  show Host.dotGeneral dot_S10000x512_S512x512_S10000x512_1_0_0_1_n_n none _ W (ix2 d f)
      + broadcastInDim S10000x512 ![0, 1] bcast_S1x512_S10000x512_0_1 (broadcastInDim S1x512 ![1] bcast_S512_S1x512_1 b) (ix2 d f)
    = layerAt X W b no ni src dst d f
  rw [dot_apply, bcast_feat]
  unfold layerAt
  refine congrArg (· + b (ix1 f)) (Finset.sum_congr rfl fun g _ => ?_)
  refine congrArg (· * W (ix2 g f)) ?_
  show Host.scatterAdd scatter_S10000x512_S160000x1_S160000x512_1_0_0_1 _ _ _ (ix2 d g)
      * broadcastInDim S10000x512 ![0, 1] bcast_S10000x1_S10000x512_0_1 (broadcastInDim S10000x1 ![0] bcast_S10000_S10000x1_0 ni) (ix2 d g)
    = agg X no ni src dst d g
  rw [bcast_node, scatter_rows dst hd]
  unfold agg
  refine congrArg (· * ni (ix1 d)) (Finset.sum_congr rfl fun e _ => ?_)
  rw [gather_rows _ src hs]
  show X (ix2 (node src e) g) * broadcastInDim S10000x512 ![0, 1] bcast_S10000x1_S10000x512_0_1
      (broadcastInDim S10000x1 ![0] bcast_S10000_S10000x1_0 no) (ix2 (node src e) g) = _
  rw [bcast_node]

end Cert.ReferenceIdeal.RefLayer

end
-- ==== Proof.RefValue.lean ====
import proofs.«413367_j60610578482006_3_alg».proof.Proof.RefRun
import proofs.«413367_j60610578482006_3_alg».proof.Proof.RefRead
import proofs.«413367_j60610578482006_3_alg».proof.Proof.RefLayer
import proofs.«413367_j60610578482006_3_alg».proof.Proof.Norm
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.GraphConv Cert.ReferenceIdeal.RefLayer
open Idealize.ShloMosaic Idealize.ShloMosaic.TcCoe Idealize.ShloMosaic.ValueIdx Idealize.SL.Sem Idealize.ShloMosaic.StableHlo

theorem v11_eq (x7 : IVec S160000 32) : ReadP.val_main_v11 (F := Ideal) x7 = normOf (F := Ideal) x7 := rfl

theorem v16_eq (x8 : IVec S160000 32) : ReadP.val_main_v16 (F := Ideal) x8 = normOf (F := Ideal) x8 := rfl

theorem relu_eq (Y : FVec Ideal S10000x512 .f32) :
    maximumf Y (broadcastInDim S10000x512 ![] bcast_S_S10000x512 (constant S_ .f32 0x00000000#32)) = fun i => act true (Y i) := by
  funext i
  show max (Y i) (Ideal.ofBits .f32 0x00000000#32) = act true (Y i)
  rw [Ideal.ofBits_zero_f32]
  rfl

section Layers
variable (x0 : FVec Ideal S10000x512 .f32) (x1 : FVec Ideal S512x512 .f32) (x2 : FVec Ideal S512 .f32)
  (x3 : FVec Ideal S512x512 .f32) (x4 : FVec Ideal S512 .f32) (x5 : FVec Ideal S512x512 .f32) (x6 : FVec Ideal S512 .f32)
  (x7 x8 : IVec S160000 32)

theorem v37_eq (hs : InRange x7) (hd : InRange x8) :
    ReadP.val_main_v37 (F := Ideal) x0 x1 x2 x7 x8
      = h1 x0 x1 x2 (normOf (F := Ideal) x7) (normOf (F := Ideal) x8) x7 x8 := by
  have e : ReadP.val_main_v37 (F := Ideal) x0 x1 x2 x7 x8
      = maximumf (refLayer x0 x1 x2 (normOf (F := Ideal) x7) (normOf (F := Ideal) x8) x7 x8)
          (broadcastInDim S10000x512 ![] bcast_S_S10000x512 (constant S_ .f32 0x00000000#32)) := rfl
  rw [e, relu_eq, refLayer_eq _ _ _ _ _ _ _ hs hd]
  rfl

theorem v58_eq (hs : InRange x7) (hd : InRange x8) :
    ReadP.val_main_v58 (F := Ideal) x0 x1 x2 x3 x4 x7 x8
      = h2 x0 x1 x2 x3 x4 (normOf (F := Ideal) x7) (normOf (F := Ideal) x8) x7 x8 := by
  have e : ReadP.val_main_v58 (F := Ideal) x0 x1 x2 x3 x4 x7 x8
      = maximumf (refLayer (ReadP.val_main_v37 (F := Ideal) x0 x1 x2 x7 x8) x3 x4 (normOf (F := Ideal) x7) (normOf (F := Ideal) x8) x7 x8)
          (broadcastInDim S10000x512 ![] bcast_S_S10000x512 (constant S_ .f32 0x00000000#32)) := rfl
  rw [e, relu_eq, refLayer_eq _ _ _ _ _ _ _ hs hd, v37_eq x0 x1 x2 x7 x8 hs hd]
  rfl

theorem v79_eq (hs : InRange x7) (hd : InRange x8) :
    ReadP.val_main_v79 (F := Ideal) x0 x1 x2 x3 x4 x7 x8
      = h3 x0 x1 x2 x3 x4 (normOf (F := Ideal) x7) (normOf (F := Ideal) x8) x7 x8 := by
  have e : ReadP.val_main_v79 (F := Ideal) x0 x1 x2 x3 x4 x7 x8
      = maximumf (refLayer (ReadP.val_main_v58 (F := Ideal) x0 x1 x2 x3 x4 x7 x8) x3 x4 (normOf (F := Ideal) x7) (normOf (F := Ideal) x8) x7 x8)
          (broadcastInDim S10000x512 ![] bcast_S_S10000x512 (constant S_ .f32 0x00000000#32)) := rfl
  rw [e, relu_eq, refLayer_eq _ _ _ _ _ _ _ hs hd, v58_eq x0 x1 x2 x3 x4 x7 x8 hs hd]
  rfl

theorem v99_eq (hs : InRange x7) (hd : InRange x8) :
    ReadP.val_main_v99 (F := Ideal) x0 x1 x2 x3 x4 x5 x6 x7 x8
      = h4 x0 x1 x2 x3 x4 x5 x6 (normOf (F := Ideal) x7) (normOf (F := Ideal) x8) x7 x8 := by
  have e : ReadP.val_main_v99 (F := Ideal) x0 x1 x2 x3 x4 x5 x6 x7 x8
      = refLayer (ReadP.val_main_v58 (F := Ideal) x0 x1 x2 x3 x4 x7 x8) x5 x6 (normOf (F := Ideal) x7) (normOf (F := Ideal) x8) x7 x8 := rfl
  rw [e, refLayer_eq _ _ _ _ _ _ _ hs hd, v58_eq x0 x1 x2 x3 x4 x7 x8 hs hd]
  rfl

end Layers

variable (m : (ℓ : Loc nD τ sig) → Buf (Elt Ideal) ℓ) (c : Dev nD)

abbrev rX : SND.Idx → EReal := m ((c.tc : Thread nD τ).loc main_arg0)
abbrev rW1 : SDD.Idx → EReal := m ((c.tc : Thread nD τ).loc main_arg1)
abbrev rB1 : SD.Idx → EReal := m ((c.tc : Thread nD τ).loc main_arg2)
abbrev rW2 : SDD.Idx → EReal := m ((c.tc : Thread nD τ).loc main_arg3)
abbrev rB2 : SD.Idx → EReal := m ((c.tc : Thread nD τ).loc main_arg4)
abbrev rW3 : SDD.Idx → EReal := m ((c.tc : Thread nD τ).loc main_arg5)
abbrev rB3 : SD.Idx → EReal := m ((c.tc : Thread nD τ).loc main_arg6)
abbrev rSrc : SE.Idx → BitVec 32 := m ((c.tc : Thread nD τ).loc main_arg7)
abbrev rDst : SE.Idx → BitVec 32 := m ((c.tc : Thread nD τ).loc main_arg8)

theorem ref_h4 (hs : InRange (rSrc m c)) (hd : InRange (rDst m c)) :
    (Cert.ReferenceIdeal.ValueP.res_out0 (F := Ideal) m c : SND.Idx → EReal)
      = h4 (rX m c) (rW1 m c) (rB1 m c) (rW2 m c) (rB2 m c) (rW3 m c) (rB3 m c)
          (normOf (F := Ideal) (rSrc m c)) (normOf (F := Ideal) (rDst m c)) (rSrc m c) (rDst m c) :=
  (ReadP.val_main_v99_eq (F := Ideal) m c).trans
    (v99_eq (rX m c) (rW1 m c) (rB1 m c) (rW2 m c) (rB2 m c) (rW3 m c) (rB3 m c) (rSrc m c) (rDst m c) hs hd)

theorem ref_h3 (hs : InRange (rSrc m c)) (hd : InRange (rDst m c)) :
    (Cert.ReferenceIdeal.ValueP.res_out1 (F := Ideal) m c : SND.Idx → EReal)
      = h3 (rX m c) (rW1 m c) (rB1 m c) (rW2 m c) (rB2 m c)
          (normOf (F := Ideal) (rSrc m c)) (normOf (F := Ideal) (rDst m c)) (rSrc m c) (rDst m c) :=
  (ReadP.val_main_v79_eq (F := Ideal) m c).trans
    (v79_eq (rX m c) (rW1 m c) (rB1 m c) (rW2 m c) (rB2 m c) (rSrc m c) (rDst m c) hs hd)

theorem ref_h2 (hs : InRange (rSrc m c)) (hd : InRange (rDst m c)) :
    (Cert.ReferenceIdeal.ValueP.res_out2 (F := Ideal) m c : SND.Idx → EReal)
      = h2 (rX m c) (rW1 m c) (rB1 m c) (rW2 m c) (rB2 m c)
          (normOf (F := Ideal) (rSrc m c)) (normOf (F := Ideal) (rDst m c)) (rSrc m c) (rDst m c) :=
  (ReadP.val_main_v58_eq (F := Ideal) m c).trans
    (v58_eq (rX m c) (rW1 m c) (rB1 m c) (rW2 m c) (rB2 m c) (rSrc m c) (rDst m c) hs hd)

end Cert.ReferenceIdeal.RefValue

end
-- ==== Proof.PreDecode.lean ====
import proofs.«413367_j60610578482006_3_alg».proof.Pre_finite_inputs
import proofs.«413367_j60610578482006_3_alg».proof.Proof.Spec
import Idealize.ShloMosaic.Lib.ReduceAll
import Idealize.ShloMosaic.Lib.StableHlo.Predicate

noncomputable section

namespace Cert.PreDecode

open Idealize.ShloMosaic Idealize.ShloMosaic.ValueIdx Cert.GraphConv Cert.Pre_finite_inputs

instance : Subsingleton S_.Idx := ⟨fun a b => funext fun d => d.elim0⟩

theorem real_of_abs_lt_top (x : EReal) (h : max x (-x) < ⊤) : ∃ r : ℝ, x = (r : EReal) := by
  induction x using EReal.rec with
  | bot => simp at h
  | coe r => exact ⟨r, rfl⟩
  | top => simp at h

theorem inf_bits : Ideal.ofBits .f32 0x7F800000#32 = ⊤ := by simp [Ideal.ofBits, Ideal.ieee]

theorem isReal_of_all {s : Shape} {axes : List (Fin s.rank)} (x : FVec Ideal s .f32)
    (hb : S_.BroadcastsInDim s (![] : Fin 0 → Fin s.rank)) (hr : s.ReducesTo axes S_) (h0 : 0 < S_.numel)
    (h : Host.reduce IntOp.andi (cmpf .olt (Host.absf x) (broadcastInDim s ![] hb (constant S_ .f32 0x7F800000#32)))
        (constantI S_ 1 1#1) hr h0 ix0 = 1#1) :
    ∀ i, ∃ r : ℝ, x i = (r : EReal) := by
  intro i
  have hi := Host.reduce_andi_all _ _ hr h0 ix0 h i
  have hlt : max (x i) (-(x i)) < (⊤ : EReal) := by
    have e : cmpf .olt (Host.absf x) (broadcastInDim s ![] hb (constant S_ .f32 0x7F800000#32)) i
        = BitVec.ofBool (decide (max (x i) (-(x i)) < Ideal.ofBits .f32 0x7F800000#32)) := rfl
    rw [e, inf_bits, StableHlo.Predicate.ofBool_eq_one_iff, decide_eq_true_eq] at hi
    exact hi
  exact real_of_abs_lt_top _ hlt

theorem inRange_of_all (w : IVec S160000 32)
    (hb : S_.BroadcastsInDim S160000 (![] : Fin 0 → Fin S160000.rank)) (hr : S160000.ReducesTo [0] S_) (h0 : 0 < S_.numel)
    (h : Host.reduce IntOp.andi
        (andi (cmpi .sge w (broadcastInDim S160000 ![] hb (constantI S_ 32 0#32)))
          (cmpi .slt w (broadcastInDim S160000 ![] hb (constantI S_ 32 10000#32))))
        (constantI S_ 1 1#1) hr h0 ix0 = 1#1) :
    InRange w := by
  intro e
  have hi := Host.reduce_andi_all _ _ hr h0 ix0 h (ix1 e)
  have e' : andi (cmpi .sge w (broadcastInDim S160000 ![] hb (constantI S_ 32 0#32)))
          (cmpi .slt w (broadcastInDim S160000 ![] hb (constantI S_ 32 10000#32))) (ix1 e)
      = IntOp.andi (IntOp.cmpi .sge (w (ix1 e)) 0#32) (IntOp.cmpi .slt (w (ix1 e)) 10000#32) := rfl
  rw [e', IntOp.andi_eq_one, IntOp.cmpi_sge, IntOp.cmpi_slt] at hi
  exact ⟨by have := hi.1; rwa [show (0#32 : BitVec 32).toInt = 0 from by decide] at this,
    by have := hi.2; rwa [show (10000#32 : BitVec 32).toInt = 10000 from by decide] at this⟩

theorem and_ix0 (a b : IVec S_ 1) (h : andi a b ix0 = 1#1) : a ix0 = 1#1 ∧ b ix0 = 1#1 := IntOp.andi_eq_one.1 h

/-- The precondition read back: every float entry is real and every edge endpoint is a node. -/
theorem decode [Cert.Pre_finite_inputs.Facts]
    (x0 : FVec Ideal S10000x512 .f32) (x1 : FVec Ideal S512x512 .f32) (x2 : FVec Ideal S512 .f32)
    (x3 : FVec Ideal S512x512 .f32) (x4 : FVec Ideal S512 .f32) (x5 : FVec Ideal S512x512 .f32) (x6 : FVec Ideal S512 .f32)
    (x7 x8 : IVec S160000 32)
    (h : Cert.Pre_finite_inputs.fn (F := Ideal) x0 x1 x2 x3 x4 x5 x6 x7 x8 = fun _ => 1#1) :
    IsReal (s := SND) x0 ∧ IsReal (s := SDD) x1 ∧ IsReal (s := SD) x2 ∧ IsReal (s := SDD) x3 ∧ IsReal (s := SD) x4
      ∧ IsReal (s := SDD) x5 ∧ IsReal (s := SD) x6 ∧ InRange x7 ∧ InRange x8 := by
  have h0 := congrFun h ValueIdx.ix0
  dsimp only [fn, fn_part1, fn_part2] at h0
  obtain ⟨h0, c8⟩ := and_ix0 _ _ h0
  obtain ⟨h0, c7⟩ := and_ix0 _ _ h0
  obtain ⟨h0, c6⟩ := and_ix0 _ _ h0
  obtain ⟨h0, c5⟩ := and_ix0 _ _ h0
  obtain ⟨h0, c4⟩ := and_ix0 _ _ h0
  obtain ⟨h0, c3⟩ := and_ix0 _ _ h0
  obtain ⟨h0, c2⟩ := and_ix0 _ _ h0
  obtain ⟨c0, c1⟩ := and_ix0 _ _ h0
  exact ⟨isReal_of_all x0 _ _ _ c0, isReal_of_all x1 _ _ _ c1, isReal_of_all x2 _ _ _ c2, isReal_of_all x3 _ _ _ c3,
    isReal_of_all x4 _ _ _ c4, isReal_of_all x5 _ _ _ c5, isReal_of_all x6 _ _ _ c6,
    inRange_of_all x7 _ _ _ c7, inRange_of_all x8 _ _ _ c8⟩

end Cert.PreDecode

end
-- ==== Proof.lean ====
/- Three graph-convolution layers through a dense matrix of edge weights (the kernel program) against the same
   layers summed edge by edge (the reference): on real inputs with edge endpoints among the nodes both end with
   `Cert.GraphConv.h4`, `h3`, `h2` of the arguments. -/
import proofs.«413367_j60610578482006_3_alg».proof.Defs
import proofs.«413367_j60610578482006_3_alg».proof.Proof.Gen.Kernel
import proofs.«413367_j60610578482006_3_alg».proof.Proof.Gen.KernelIdeal
import proofs.«413367_j60610578482006_3_alg».proof.Proof.Gen.ReferenceIdeal
import proofs.«413367_j60610578482006_3_alg».proof.Proof.Gen.Pre_finite_inputs
import proofs.«413367_j60610578482006_3_alg».proof.Proof.KValue
import proofs.«413367_j60610578482006_3_alg».proof.Proof.RefValue
import proofs.«413367_j60610578482006_3_alg».proof.Proof.PreDecode
import Idealize.ShloMosaic.Adequacy
import Idealize.ShloMosaic.Init

noncomputable section

namespace Cert.Proof

open Idealize.ShloMosaic Idealize.ShloMosaic.TcCoe Idealize.ShloMosaic.Tactic Idealize.SL.Sem Cert.GraphConv
open Cert.KernelIdeal.KHost Cert.KernelIdeal.Fr Cert.ReferenceIdeal.RefValue

/-- Nothing was rewritten between the two kernel programs: they are one term, and the frame, proved once at any float
    family, serves both. -/
theorem frame_k : Cert.frame_Kernel := fun m ρ _ => Eq.mp (by sl_kernel_rfl) (frame_all (F := Bits) m ρ)

theorem frame_ki : Cert.frame_KernelIdeal := fun m ρ _ => frame_all (F := Ideal) m ρ

/-- The reference's frame is its run with the three results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

theorem preserves : Cert.preserves_Kernel_KernelIdeal := trivial

/-- Both runs end with the same three arrays: each side's value lemma names them, and the memories agree on the arguments. -/
theorem algebraic : Cert.algebraic_KernelIdeal_ReferenceIdeal := by
  intro m ρ m' ρ' hpre hagree
  have hdec := fun c : Dev Cert.KernelIdeal.nD =>
    Cert.PreDecode.decode (aX m c) (aW1 m c) (aB1 m c) (aW2 m c) (aB2 m c) (aW3 m c) (aB3 m c) (aSrc m c) (aDst m c) (hpre c)
  refine ⟨
    fun c => h4 (aX m c) (aW1 m c) (aB1 m c) (aW2 m c) (aB2 m c) (aW3 m c) (aB3 m c) (kno m c) (kni m c) (aSrc m c) (aDst m c),
    fun c => h3 (aX m c) (aW1 m c) (aB1 m c) (aW2 m c) (aB2 m c) (kno m c) (kni m c) (aSrc m c) (aDst m c),
    fun c => h2 (aX m c) (aW1 m c) (aB1 m c) (aW2 m c) (aB2 m c) (kno m c) (kni m c) (aSrc m c) (aDst m c),
    ?kernel, ?reference⟩
  case kernel =>
    refine (θ_run Cert.KernelIdeal.defs _ _).mono (fun r h c => ?_) (run_all (F := Ideal) m ρ)
    obtain ⟨hX, hW1, hB1, hW2, hB2, -, -, hs, hd⟩ := hdec c
    obtain ⟨e4, e3, e2⟩ := results m c hs hd hX hW1 hB1 hW2 hB2
    exact ⟨(h c _ (mem_uc Cert.KernelIdeal.main_v58 (by decide))).trans e4,
      (h c _ (mem_uc Cert.KernelIdeal.main_v59 (by decide))).trans e3,
      (h c _ (mem_uc Cert.KernelIdeal.main_v60 (by decide))).trans e2, args_kept m c r.2.mem (h c)⟩
  case reference =>
    refine (θ_run Cert.ReferenceIdeal.defs _ _).mono (fun r h c => ?_) (Cert.ReferenceIdeal.ValueP.run (F := Ideal) m' ρ')
    obtain ⟨-, -, -, -, -, -, -, hs, hd⟩ := hdec c
    obtain ⟨a0, a1, a2, a3, a4, a5, a6, a7, a8⟩ : rX m' c = aX m c ∧ rW1 m' c = aW1 m c ∧ rB1 m' c = aB1 m c ∧ rW2 m' c = aW2 m c
      ∧ rB2 m' c = aB2 m c ∧ rW3 m' c = aW3 m c ∧ rB3 m' c = aB3 m c ∧ rSrc m' c = aSrc m c ∧ rDst m' c = aDst m c := hagree c
    have hs' : InRange (rSrc m' c) := by rw [a7]; exact hs
    have hd' : InRange (rDst m' c) := by rw [a8]; exact hd
    obtain ⟨r4, r3, r2, rest⟩ := h c
    exact ⟨r4.trans ((ref_h4 m' c hs' hd').trans (by rw [a0, a1, a2, a3, a4, a5, a6, a7, a8])),
      r3.trans ((ref_h3 m' c hs' hd').trans (by rw [a0, a1, a2, a3, a4, a7, a8])),
      r2.trans ((ref_h2 m' c hs' hd').trans (by rw [a0, a1, a2, a3, a4, a7, a8])), rest⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
